-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S5000x64 : Shape := ⟨2, ![5000, 64]⟩
abbrev S5000x1 : Shape := ⟨2, ![5000, 1]⟩
abbrev S1300000x64 : Shape := ⟨2, ![1300000, 64]⟩
abbrev S1x64 : Shape := ⟨2, ![1, 64]⟩
abbrev S1x10 : Shape := ⟨2, ![1, 10]⟩
abbrev S256x10 : Shape := ⟨2, ![256, 10]⟩
abbrev S2000x64 : Shape := ⟨2, ![2000, 64]⟩
abbrev S2000x1 : Shape := ⟨2, ![2000, 1]⟩
abbrev S256x64 : Shape := ⟨2, ![256, 64]⟩
abbrev S256x1 : Shape := ⟨2, ![256, 1]⟩
abbrev S2000x256 : Shape := ⟨2, ![2000, 256]⟩

abbrev nBuf : Space → Nat
  | .hbm => 62
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S100000, .i32⟩
  | .hbm, ⟨14, _⟩ => ⟨S1300000, .i32⟩
  | .hbm, ⟨15, _⟩ => ⟨S1300000, .i32⟩
  | .hbm, ⟨16, _⟩ => ⟨S_, .f32⟩
  | .hbm, ⟨17, _⟩ => ⟨S1300000, .f32⟩
  | .hbm, ⟨18, _⟩ => ⟨S_, .f32⟩
  | .hbm, ⟨19, _⟩ => ⟨S100000, .f32⟩
  | .hbm, ⟨20, _⟩ => ⟨S1300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .bf16⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000x64, .bf16⟩
  | .hbm, ⟨37, _⟩ => ⟨S1300000x64, .f32⟩
  | .hbm, ⟨38, _⟩ => ⟨S_, .f32⟩
  | .hbm, ⟨39, _⟩ => ⟨S100000x64, .f32⟩
  | .hbm, ⟨40, _⟩ => ⟨S1300000x1, .i32⟩
  | .hbm, ⟨41, _⟩ => ⟨S100000x64, .f32⟩
  | .hbm, ⟨42, _⟩ => ⟨S1x64, .f32⟩
  | .hbm, ⟨43, _⟩ => ⟨S100000x64, .bf16⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .bf16⟩
  | .hbm, ⟨53, _⟩ => ⟨S1300000x64, .f32⟩
  | .hbm, ⟨54, _⟩ => ⟨S_, .f32⟩
  | .hbm, ⟨55, _⟩ => ⟨S100000x64, .f32⟩
  | .hbm, ⟨56, _⟩ => ⟨S1300000x1, .i32⟩
  | .hbm, ⟨57, _⟩ => ⟨S100000x64, .f32⟩
  | .hbm, ⟨58, _⟩ => ⟨S100000x1, .i32⟩
  | .hbm, ⟨59, _⟩ => ⟨S1x64, .f32⟩
  | .hbm, ⟨60, _⟩ => ⟨S1x10, .f32⟩
  | .hbm, ⟨61, _⟩ => ⟨S256x10, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x1, .i32⟩
  | .local _ .vmem, ⟨21, _⟩ => ⟨S2000x1, .i32⟩
  | .local _ .vmem, ⟨22, _⟩ => ⟨S64x10, .f32⟩
  | .local _ .vmem, ⟨23, _⟩ => ⟨S1x10, .f32⟩
  | .local _ .vmem, ⟨24, _⟩ => ⟨S256x10, .f32⟩
  | .local _ .vmem, ⟨25, _⟩ => ⟨S256x64, .f32⟩
  | .local _ .vmem, ⟨26, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_19 : BitVec 32 := 0#32
  let v40 : BitVec 1 := Scalar.cmpi .ne v39 c0_i32_19
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  broadcasts_S1x64_S2000x64 : S1x64.Broadcasts S2000x64
  iota_S2000x256_d1_w32 : S2000x256.Iotas .tc 32 [1]
  broadcasts_S2000x1_S2000x256 : S2000x1.Broadcasts S2000x256
  natLt_1_32 : 1 < 32
  broadcasts_S256x1_S256x64 : S256x1.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S1300000x1_S1300000_n_0_0_1_wf : ScatterDims.WF S100000 S1300000x1 S1300000 [] [0] [0] 1
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S2000x256_S2000x64_S256x64_0_0_1_1_n_n_wf : DotDims.WF S2000x256 S2000x64 S256x64 [0] [0] [1] [1] [] []
  dot_S2000x256_S2000x1_S256x1_0_0_1_1_n_n_wf : DotDims.WF S2000x256 S2000x1 S256x1 [0] [0] [1] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x10.size a ≤ S1x10.size a
  hwx2_5 : ∀ i : grid2.Coords, EltTy.bits .f32 = 32 ∨ (Rect.block (s := S1x10) S1x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x10.size a ≤ S256x10.size a
  hwx2_6 : ∀ i : grid2.Coords, EltTy.bits .f32 = 32 ∨ (Rect.block (s := S256x10) S256x10.size (cc2_transform_6 i) (hinb2_6 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S2000x256_S2000x64_S256x64_0_0_1_1_n_n : DotDims S2000x256 S2000x64 S256x64 where
  lhsContracting := [0]
  rhsContracting := [0]
  lhsNonContracting := [1]
  rhsNonContracting := [1]
  lhsBatch := []
  rhsBatch := []
  wf := dot_S2000x256_S2000x64_S256x64_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S256x10.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 143
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S1x1200000, .i32⟩
  | 10 => ⟨S1200000, .i32⟩
  | 11 => ⟨S1x1200000, .i32⟩
  | 12 => ⟨S1200000, .i32⟩
  | 13 => ⟨S100000x64, .f32⟩
  | 14 => ⟨S100000, .i32⟩
  | 15 => ⟨S1300000, .i32⟩
  | 16 => ⟨S1300000, .i32⟩
  | 17 => ⟨S_, .f32⟩
  | 18 => ⟨S1300000, .f32⟩
  | 19 => ⟨S_, .f32⟩
  | 20 => ⟨S100000, .f32⟩
  | 21 => ⟨S1300000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1300000, .i32⟩
  | 29 => ⟨S1300000, .i1⟩
  | 30 => ⟨S_, .i32⟩
  | 31 => ⟨S1300000, .i32⟩
  | 32 => ⟨S1300000, .i32⟩
  | 33 => ⟨S1300000, .i32⟩
  | 34 => ⟨S1300000x1, .i32⟩
  | 35 => ⟨S1300000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S1300000, .f32⟩
  | 46 => ⟨S_, .i32⟩
  | 47 => ⟨S1300000, .i32⟩
  | 48 => ⟨S1300000, .i1⟩
  | 49 => ⟨S_, .i32⟩
  | 50 => ⟨S1300000, .i32⟩
  | 51 => ⟨S1300000, .i32⟩
  | 52 => ⟨S1300000, .i32⟩
  | 53 => ⟨S1300000x1, .i32⟩
  | 54 => ⟨S1300000x64, .f32⟩
  | 55 => ⟨S1300000x1, .f32⟩
  | 56 => ⟨S1300000x64, .f32⟩
  | 57 => ⟨S1300000x64, .f32⟩
  | 58 => ⟨S_, .f32⟩
  | 59 => ⟨S100000x64, .f32⟩
  | 60 => ⟨S1300000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S100000, .i32⟩
  | 70 => ⟨S1300000, .i32⟩
  | 71 => ⟨S1300000, .i32⟩
  | 72 => ⟨S_, .f32⟩
  | 73 => ⟨S1300000, .f32⟩
  | 74 => ⟨S_, .f32⟩
  | 75 => ⟨S100000, .f32⟩
  | 76 => ⟨S1300000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1300000, .i32⟩
  | 84 => ⟨S1300000, .i1⟩
  | 85 => ⟨S_, .i32⟩
  | 86 => ⟨S1300000, .i32⟩
  | 87 => ⟨S1300000, .i32⟩
  | 88 => ⟨S1300000, .i32⟩
  | 89 => ⟨S1300000x1, .i32⟩
  | 90 => ⟨S1300000, .f32⟩
  | 91 => ⟨S_, .i32⟩
  | 92 => ⟨S1300000, .i32⟩
  | 93 => ⟨S1300000, .i1⟩
  | 94 => ⟨S_, .i32⟩
  | 95 => ⟨S1300000, .i32⟩
  | 96 => ⟨S1300000, .i32⟩
  | 97 => ⟨S1300000, .i32⟩
  | 98 => ⟨S1300000x1, .i32⟩
  | 99 => ⟨S1300000, .f32⟩
  | 100 => ⟨S1300000, .f32⟩
  | 101 => ⟨S_, .i32⟩
  | 102 => ⟨S1300000, .i32⟩
  | 103 => ⟨S1300000, .i1⟩
  | 104 => ⟨S_, .i32⟩
  | 105 => ⟨S1300000, .i32⟩
  | 106 => ⟨S1300000, .i32⟩
  | 107 => ⟨S1300000, .i32⟩
  | 108 => ⟨S1300000x1, .i32⟩
  | 109 => ⟨S1300000x64, .f32⟩
  | 110 => ⟨S1300000x1, .f32⟩
  | 111 => ⟨S1300000x64, .f32⟩
  | 112 => ⟨S1300000x64, .f32⟩
  | 113 => ⟨S_, .f32⟩
  | 114 => ⟨S100000x64, .f32⟩
  | 115 => ⟨S1300000x1, .i32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S256x64, .f32⟩
  | 125 => ⟨S100000x1, .i32⟩
  | 126 => ⟨S256x64, .f32⟩
  | 127 => ⟨S_, .f32⟩
  | _ => ⟨S100000x64, .f32⟩

abbrev hbmTy0_1 (i : Nat) : BufTy := match i % 128 with
  | 0 => ⟨S100000, .f32⟩
  | 1 => ⟨S_, .f32⟩
  | 2 => ⟨S256, .f32⟩
  | 3 => ⟨S100000x1, .i32⟩
  | 4 => ⟨S256, .f32⟩
  | 5 => ⟨S_, .f32⟩
  | 6 => ⟨S256, .f32⟩
  | 7 => ⟨S256, .f32⟩
  | 8 => ⟨S256x1, .f32⟩
  | 9 => ⟨S256x64, .f32⟩
  | 10 => ⟨S256x64, .f32⟩
  | 11 => ⟨S256x10, .f32⟩
  | 12 => ⟨S1x10, .f32⟩
  | 13 => ⟨S256x10, .f32⟩
  | 14 => ⟨S256x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call1_cst : Ref sig .tc := ⟨.hbm, 120, rfl⟩
abbrev main_call1_v0 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x10_S256x10_1_0_0_1_n_n_wf : DotDims.WF S256x64 S64x10 S256x10 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.Spec.lean ====
import Idealize.ShloMosaic.PureOps.Ideal

noncomputable section

namespace Cert.GcnPool

open Idealize.ShloMosaic

def lin {n a b : Nat} (x : Fin n → Fin a → EReal) (W : Fin a → Fin b → EReal) (i : Fin n) (k : Fin b) : EReal :=
  ∑ j : Fin a, x i j * W j k

def segSum {E N C : Nat} (dst : Fin E → ℤ) (msg : Fin E → Fin C → EReal) (i : Fin N) (k : Fin C) : EReal :=
  ∑ e ∈ Finset.univ.filter (fun e : Fin E => dst e = (i.val : ℤ)), msg e k

def node (t : Fin 50) (r : Fin 2000) : Fin 100000 := ⟨2000 * t.val + r.val, by have := t.isLt; have := r.isLt; omega⟩

def member (grp : Fin 100000 → ℤ) (n : Fin 100000) (g : Fin 256) : EReal := if grp n = (g.val : ℤ) then 1 else 0

def runTotal (tile : ℕ → EReal) : ℕ → EReal
  | 0 => 0 + tile 0
  | n + 1 => runTotal tile n + tile (n + 1)

section

variable (src : Fin 1300000 → Fin 100000) (dst : Fin 1300000 → ℤ) (dstc : Fin 1300000 → Fin 100000)
  (d : Fin 100000 → EReal) (grp : Fin 100000 → ℤ)
  (x : Fin 100000 → Fin 64 → EReal) (W1 W2 : Fin 64 → Fin 64 → EReal) (b1 b2 : Fin 64 → EReal)
  (Wl : Fin 64 → Fin 10 → EReal) (bl : Fin 10 → EReal)

def tScaledLin (a : Fin 100000 → Fin 64 → EReal) (W : Fin 64 → Fin 64 → EReal) (i : Fin 100000) (k : Fin 64) : EReal :=
  d i * lin a W i k

def tCollect (hs : Fin 100000 → Fin 64 → EReal) (i : Fin 100000) (k : Fin 64) : EReal :=
  segSum dst (fun e => hs (src e)) i k

def tAct (p : Fin 100000 → Fin 64 → EReal) (b : Fin 64 → EReal) (i : Fin 100000) (k : Fin 64) : EReal :=
  max (d i * p i k + b k) 0

def tAct1 : Fin 100000 → Fin 64 → EReal := tAct d (tCollect src dst (tScaledLin d x W1)) b1

def tAct2 : Fin 100000 → Fin 64 → EReal :=
  tAct d (tCollect src dst (tScaledLin d (tAct1 src dst d x W1 b1) W2)) b2

def tTileSum (a : Fin 100000 → Fin 64 → EReal) (g : Fin 256) (k : Fin 64) (t : ℕ) : EReal :=
  if h : t < 50 then ∑ r : Fin 2000, member grp (node ⟨t, h⟩ r) g * a (node ⟨t, h⟩ r) k else 0

def tTileCnt (g : Fin 256) (t : ℕ) : EReal :=
  if h : t < 50 then ∑ r : Fin 2000, member grp (node ⟨t, h⟩ r) g * 1 else 0

def readOut (s : Fin 256 → Fin 64 → EReal) (c : Fin 256 → EReal) (g : Fin 256) (o : Fin 10) : EReal :=
  (∑ k : Fin 64, Ideal.div (s g k) (max (c g) 1) * Wl k o) + bl o

def tOut (g : Fin 256) (o : Fin 10) : EReal :=
  readOut Wl bl (fun g k => runTotal (tTileSum grp (tAct2 src dst d x W1 W2 b1 b2) g k) 49)
    (fun g => runTotal (tTileCnt grp g) 49) g o

def pAct (h : Fin 100000 → Fin 64 → EReal) (b : Fin 64 → EReal) (i : Fin 100000) (k : Fin 64) : EReal :=
  max (segSum dst (fun e k => h (src e) k * (d (src e) * d (dstc e))) i k + b k) 0

def pAct1 : Fin 100000 → Fin 64 → EReal := pAct src dst dstc d (lin x W1) b1

def pAct2 : Fin 100000 → Fin 64 → EReal := pAct src dst dstc d (lin (pAct1 src dst dstc d x W1 b1) W2) b2

def pOut (g : Fin 256) (o : Fin 10) : EReal :=
  readOut Wl bl (fun g k => segSum grp (fun n k => pAct2 src dst dstc d x W1 W2 b1 b2 n k) g k)
    (fun g => segSum (C := 1) grp (fun _ _ => (1 : EReal)) g 0) g o

end

end Cert.GcnPool

end
-- ==== Proof.Graph.lean ====
import proofs.«430635_j91018946937353_3_alg».proof.Proof.Spec
import Idealize.ShloMosaic.Lib.ValueIdx

noncomputable section

namespace Cert.GcnPool

open Idealize.ShloMosaic Idealize.ShloMosaic.ValueIdx

def endWord (ei : IVec ⟨2, ![2, 1200000]⟩ 32) (a : Fin 2) (e : Fin 1300000) : BitVec 32 :=
  if h : e.val < 1200000 then ei (ix2 a ⟨e.val, h⟩) else BitVec.ofNat 32 (e.val - 1200000)

def wrap (w : BitVec 32) : BitVec 32 := if w.toInt < 0 then w + 100000#32 else w

def rowOf (w : BitVec 32) : Fin 100000 := ⟨min (wrap w).toInt.toNat 99999, by omega⟩

def srcOf (ei : IVec ⟨2, ![2, 1200000]⟩ 32) (e : Fin 1300000) : Fin 100000 := rowOf (endWord ei 0 e)

def dstOf (ei : IVec ⟨2, ![2, 1200000]⟩ 32) (e : Fin 1300000) : ℤ := (endWord ei 1 e).toInt

def dstcOf (ei : IVec ⟨2, ![2, 1200000]⟩ 32) (e : Fin 1300000) : Fin 100000 := rowOf (endWord ei 1 e)

def degOf (ei : IVec ⟨2, ![2, 1200000]⟩ 32) (i : Fin 100000) : EReal :=
  segSum (C := 1) (dstOf ei) (fun _ _ => (1 : EReal)) i 0

def dOf (ei : IVec ⟨2, ![2, 1200000]⟩ 32) (i : Fin 100000) : EReal := Ideal.rsqrt (max (degOf ei i) 1)

def grpOf (batch : IVec ⟨1, ![100000]⟩ 32) (n : Fin 100000) : ℤ := (batch (ix1 n)).toInt

end Cert.GcnPool

end
-- ==== Proof.LibRowGatherScatter.lean ====
import Idealize.ShloMosaic.PureOps.Ideal
import Idealize.ShloMosaic.Lib.ValueIdx

noncomputable section

namespace Cert.Gcn

open Idealize.ShloMosaic Idealize.ShloMosaic.ValueIdx

theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil

  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by

  have hus : ∀ X : Fin 2, X ∈ d.uScatter → X = 0 := by
    intro X hX
    have hX' : X ∈ (⟨2, ![E, C]⟩ : Shape).kept [1] := by rw [← huw]; exact hX
    simp [Shape.kept, List.mem_filter] at hX'
    omega

  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]

  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)

  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1

  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.GraphFacts.lean ====
import proofs.«430635_j91018946937353_3_alg».proof.Proof.Graph
import proofs.«430635_j91018946937353_3_alg».proof.Proof.LibRowGatherScatter
import Idealize.ShloMosaic.Lib.IdealHost
import Idealize.ShloMosaic.Lib.StableHlo.Predicate
import Mathlib.Analysis.Real.Sqrt

noncomputable section

namespace Cert.GcnPool

open Idealize.ShloMosaic Idealize.ShloMosaic.ValueIdx

theorem one_f32 : Ideal.ofBits .f32 0x3F800000#32 = 1 := Ideal.ofBits_one_f32

theorem rsqrt_of_one_le (y : EReal) (hy : 1 ≤ y) : ∃ r : ℝ, 0 ≤ r ∧ r ≤ 1 ∧ Ideal.rsqrt y = (r : EReal) := by
  induction y using EReal.rec with
  | bot =>
    have h1 : (⊥ : EReal) < 1 := by rw [← EReal.coe_one]; exact EReal.bot_lt_coe 1
    exact absurd hy (not_le.2 h1)
  | coe r =>
    have hr : (1 : ℝ) ≤ r := by exact_mod_cast hy
    refine ⟨(Real.sqrt r)⁻¹, inv_nonneg.2 (Real.sqrt_nonneg r), inv_le_one_of_one_le₀ (Real.one_le_sqrt.2 hr), ?_⟩
    rw [Ideal.rsqrt_coe, if_neg (by linarith), if_neg (by linarith)]
  | top => exact ⟨0, le_refl _, zero_le_one, by simp⟩

theorem dOf_real (ei : IVec ⟨2, ![2, 1200000]⟩ 32) (i : Fin 100000) :
    ∃ r : ℝ, 0 ≤ r ∧ r ≤ 1 ∧ dOf ei i = (r : EReal) :=
  rsqrt_of_one_le _ (le_max_right _ _)

theorem dOf_nonneg (ei : IVec ⟨2, ![2, 1200000]⟩ 32) (i : Fin 100000) : 0 ≤ dOf ei i := by
  obtain ⟨r, h0, _, hr⟩ := dOf_real ei i
  rw [hr]
  exact_mod_cast h0

theorem dOf_ne_top (ei : IVec ⟨2, ![2, 1200000]⟩ 32) (i : Fin 100000) : dOf ei i ≠ ⊤ := by
  obtain ⟨r, _, _, hr⟩ := dOf_real ei i
  rw [hr]
  exact EReal.coe_ne_top r

theorem rowOf_eq_of_toInt (w : BitVec 32) (i : Fin 100000) (h : w.toInt = (i.val : ℤ)) : rowOf w = i := by
  have hi := i.isLt
  have hw : wrap w = w := by
    unfold wrap
    rw [if_neg (by omega)]
  apply Fin.ext
  show min (wrap w).toInt.toNat 99999 = i.val
  rw [hw, h]
  omega

theorem dstcOf_eq_of_dstOf (ei : IVec ⟨2, ![2, 1200000]⟩ 32) (e : Fin 1300000) (i : Fin 100000)
    (h : dstOf ei e = (i.val : ℤ)) : dstcOf ei e = i :=
  rowOf_eq_of_toInt _ i h

theorem scatterAdd_vec {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (i : Fin N) :
    (Host.scatterAdd (F := Ideal) (φ := .f32) d x idx upd : (⟨1, ![N]⟩ : Shape).Idx → EReal) (ix1 i)
      = x (ix1 i) + ∑ e ∈ Finset.univ.filter (fun e : Fin E => (idx (ix2 e (0 : Fin 1))).toInt = (i.val : ℤ)), upd (ix1 e) := by
  have hs0 : ∀ j : (⟨1, ![E]⟩ : Shape).Idx, d.start j idx 0 = (idx (ix2 (j 0) (0 : Fin 1))).toInt := by
    intro j
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact congrArg (fun X : Fin 1 => (j X).val) (Subsingleton.elim _ _)
    | ⟨1, _⟩ =>
      unfold ScatterDims.siIdx
      rw [dif_pos (by rw [hivd])]
      apply Fin.ext
      show List.idxOf (0 : Fin 1) d.scatterDimsToOperandDims = 0
      rw [hsd]; simp
  have hw0 : ∀ j : (⟨1, ![E]⟩ : Shape).Idx, d.window j 0 = 0 := by
    intro j
    have hk : (0 : Fin 1) ∉ d.sKept := by simp [ScatterDims.sKept, Shape.kept, hiw]
    unfold ScatterDims.window
    rw [dif_neg hk]
  have key : ∀ j : (⟨1, ![E]⟩ : Shape).Idx, d.resultIdx? j idx = some (ix1 i) ↔
      (idx (ix2 (j 0) (0 : Fin 1))).toInt = (i.val : ℤ) := by
    intro j
    unfold ScatterDims.resultIdx?
    constructor
    · intro h
      split at h
      · rename_i hr
        have hf := Option.some.inj h
        have h0 : (d.start j idx 0 + d.window j 0).toNat = i.val := congrArg Fin.val (congrFun hf 0)
        have r0 := (hr 0).1
        rw [hs0, hw0] at h0 r0
        omega
      · exact absurd h (by simp)
    · intro h0
      have hr : ∀ a, 0 ≤ d.start j idx a + d.window j a ∧
          d.start j idx a + d.window j a < (⟨1, ![N]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
      rw [dif_pos hr]
      congr 1
      funext a
      match a with
      | ⟨0, _⟩ =>
        apply Fin.ext
        show (d.start j idx 0 + d.window j 0).toNat = i.val
        rw [hs0, hw0, h0]
        omega
  show Ideal.hostScatterAdd d x idx upd (ix1 i) = _
  unfold Ideal.hostScatterAdd
  congr 1
  refine Finset.sum_bij' (fun j _ => (j 0 : Fin E)) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

theorem gather_vec {α : Type} {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  have e1 : ∀ {n : Nat} (p : Fin n), (Shape.Idx.ofFin p : (⟨1, ![n]⟩ : Shape).Idx) = ix1 p := fun p => by
    funext a; match a with | ⟨0, _⟩ => rfl
  have e2 : (StableHlo.Predicate.ixP e : (⟨2, ![E, 1]⟩ : Shape).Idx) = ix2 e (0 : Fin 1) := by
    funext a; match a with | ⟨0, _⟩ => rfl | ⟨1, _⟩ => rfl
  rw [← e1 e, StableHlo.Predicate.gather_take d hcoll hob hsim hivd x idx e hN]
  refine congrArg x (funext fun a => ?_)
  match a with
  | ⟨0, _⟩ =>
    refine Fin.ext ?_
    show min (idx (StableHlo.Predicate.ixP e)).toInt.toNat (N - 1) = min (idx (ix2 e (0 : Fin 1))).toInt.toNat (N - 1)
    rw [e2]

end Cert.GcnPool

end
-- ==== Proof.Algebra.lean ====
import proofs.«430635_j91018946937353_3_alg».proof.Proof.Spec
import Mathlib.Data.EReal.Inv
import Mathlib.Data.Fintype.BigOperators
import Mathlib.Algebra.BigOperators.Fin

noncomputable section

namespace Cert.GcnPool

open Idealize.ShloMosaic

-- A nonnegative real distributes over a finite sum of extended reals.
theorem mul_sum_of_nonneg_of_ne_top {ι : Type*} (s : Finset ι) (c : EReal) (hc0 : 0 ≤ c) (hcT : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc0 hcT, ih]

section Layers
variable (src : Fin 1300000 → Fin 100000) (dst : Fin 1300000 → ℤ) (dstc : Fin 1300000 → Fin 100000)
  (d : Fin 100000 → EReal) (grp : Fin 100000 → ℤ)
  (x : Fin 100000 → Fin 64 → EReal) (W1 W2 : Fin 64 → Fin 64 → EReal) (b1 b2 : Fin 64 → EReal)
  (Wl : Fin 64 → Fin 10 → EReal) (bl : Fin 10 → EReal)
  (hd0 : ∀ i, 0 ≤ d i) (hdT : ∀ i, d i ≠ ⊤)
  (hdst : ∀ (e : Fin 1300000) (i : Fin 100000), dst e = (i.val : ℤ) → dstc e = i)
include hd0 hdT hdst

-- d i moves across the sum along the edges: an edge summed into row i has clamped destination i.
theorem tAct_collect_eq_pAct (h : Fin 100000 → Fin 64 → EReal) (b : Fin 64 → EReal) :
    tAct d (tCollect src dst (fun i k => d i * h i k)) b = pAct src dst dstc d h b := by
  funext i k
  unfold tAct pAct tCollect segSum
  rw [mul_sum_of_nonneg_of_ne_top _ _ (hd0 i) (hdT i)]
  refine congrArg (fun s : EReal => max (s + b k) 0) (Finset.sum_congr rfl fun e he => ?_)
  show d i * (d (src e) * h (src e) k) = h (src e) k * (d (src e) * d (dstc e))
  rw [hdst e i (Finset.mem_filter.mp he).2, mul_comm (d i), mul_comm (d (src e)) (h (src e) k), mul_assoc]

theorem tAct2_eq_pAct2 : tAct2 src dst d x W1 W2 b1 b2 = pAct2 src dst dstc d x W1 W2 b1 b2 := by
  have h1 : tAct1 src dst d x W1 b1 = pAct1 src dst dstc d x W1 b1 := tAct_collect_eq_pAct src dst dstc d hd0 hdT hdst (lin x W1) b1
  unfold tAct2 pAct2
  rw [h1]
  exact tAct_collect_eq_pAct src dst dstc d hd0 hdT hdst _ b2

end Layers

theorem runTotal_eq_sum (tile : ℕ → EReal) (n : ℕ) : runTotal tile n = ∑ t ∈ Finset.range (n + 1), tile t := by
  induction n with
  | zero => simp [runTotal]
  | succ n ih => rw [runTotal, ih, Finset.sum_range_succ _ (n + 1)]

def nodeEquiv : Fin 50 × Fin 2000 ≃ Fin 100000 where
  toFun p := node p.1 p.2
  invFun n := (⟨n.val / 2000, by have := n.isLt; omega⟩, ⟨n.val % 2000, by omega⟩)
  left_inv p := by
    obtain ⟨t, r⟩ := p
    have ht := t.isLt
    have hr := r.isLt
    apply Prod.ext <;> apply Fin.ext <;> simp only [node] <;> omega
  right_inv n := by
    apply Fin.ext
    simp only [node]
    omega

-- The running total over the fifty tiles, from a zero start, is the sum over all nodes.
theorem runTotal_tiles_eq_sum_nodes (F : Fin 100000 → EReal) :
    runTotal (fun t => if h : t < 50 then ∑ r : Fin 2000, F (node ⟨t, h⟩ r) else 0) 49
      = ∑ n : Fin 100000, F n := by
  rw [runTotal_eq_sum, Finset.sum_range, ← Equiv.sum_comp nodeEquiv F, Fintype.sum_prod_type]
  exact Finset.sum_congr rfl fun t _ => by rw [dif_pos t.isLt]; rfl

-- A sum weighted by membership in graph g is the sum over the nodes whose graph word reads g.
theorem sum_member_mul_eq_segSum {C : Nat} (grp : Fin 100000 → ℤ) (a : Fin 100000 → Fin C → EReal)
    (g : Fin 256) (k : Fin C) :
    ∑ n : Fin 100000, member grp n g * a n k = segSum grp a g k := by
  unfold segSum member
  rw [Finset.sum_filter]
  exact Finset.sum_congr rfl fun n _ => by rw [ite_mul, one_mul, zero_mul]

theorem pooled_sum_eq (grp : Fin 100000 → ℤ) (a : Fin 100000 → Fin 64 → EReal) (g : Fin 256) (k : Fin 64) :
    runTotal (tTileSum grp a g k) 49 = segSum grp a g k := by
  rw [← sum_member_mul_eq_segSum, ← runTotal_tiles_eq_sum_nodes (fun n => member grp n g * a n k)]
  rfl

theorem pooled_cnt_eq (grp : Fin 100000 → ℤ) (g : Fin 256) :
    runTotal (tTileCnt grp g) 49 = segSum (C := 1) grp (fun _ _ => (1 : EReal)) g 0 := by
  rw [← sum_member_mul_eq_segSum, ← runTotal_tiles_eq_sum_nodes (fun n => member grp n g * 1)]
  rfl

theorem tOut_eq_pOut (src : Fin 1300000 → Fin 100000) (dst : Fin 1300000 → ℤ) (dstc : Fin 1300000 → Fin 100000)
    (d : Fin 100000 → EReal) (grp : Fin 100000 → ℤ)
    (x : Fin 100000 → Fin 64 → EReal) (W1 W2 : Fin 64 → Fin 64 → EReal) (b1 b2 : Fin 64 → EReal)
    (Wl : Fin 64 → Fin 10 → EReal) (bl : Fin 10 → EReal)
    (hd0 : ∀ i, 0 ≤ d i) (hdT : ∀ i, d i ≠ ⊤)
    (hdst : ∀ (e : Fin 1300000) (i : Fin 100000), dst e = (i.val : ℤ) → dstc e = i) :
    tOut src dst d grp x W1 W2 b1 b2 Wl bl = pOut src dst dstc d grp x W1 W2 b1 b2 Wl bl := by
  funext g o
  unfold tOut pOut
  rw [tAct2_eq_pAct2 src dst dstc d x W1 W2 b1 b2 hd0 hdT hdst, funext₂ (pooled_sum_eq grp _), funext (pooled_cnt_eq grp)]

end Cert.GcnPool

end
-- ==== Proof.HostRead.lean ====
import proofs.«430635_j91018946937353_3_alg».proof.Proof.GraphFacts
import Idealize.ShloMosaic.Lib.IdealHost
import Idealize.ShloMosaic.Lib.StableHlo.Predicate
import Idealize.ShloMosaic.Lib.Pipeline.Value

noncomputable section

namespace Cert.GcnPool

open Idealize.ShloMosaic Idealize.ShloMosaic.ValueIdx

theorem endWord_read_of (ei : IVec ⟨2, ![2, 1200000]⟩ 32) (a : Fin 2) (off : Fin 2 → Nat) (h0 : off 0 = a.val) (h1 : off 1 = 0)
    (hs : (⟨2, ![2, 1200000]⟩ : Shape).Slices off ⟨2, ![1, 1200000]⟩)
    (hc : (⟨2, ![1, 1200000]⟩ : Shape).ShapeCasts ⟨1, ![1200000]⟩)
    (hcat : Shape.Concatenates [⟨1, ![1200000]⟩, ⟨1, ![100000]⟩] ⟨1, ![1300000]⟩ 0) (e : Fin 1300000) :
    concatenate (α := BitVec 32) ⟨1, ![1300000]⟩ 0
      [⟨⟨1, ![1200000]⟩, shapeCast ⟨1, ![1200000]⟩ (extractStridedSlice ⟨2, ![1, 1200000]⟩ off ei hs) hc⟩,
       ⟨⟨1, ![100000]⟩, iotaInDim ⟨1, ![100000]⟩ 32 0⟩] hcat (ix1 e) = endWord ei a e := by
  unfold endWord
  by_cases h : e.val < 1200000
  · rw [dif_pos h]
    refine (concatenate_pair_apply_left (t := ⟨1, ![1300000]⟩) (s₁ := ⟨1, ![1200000]⟩) (s₂ := ⟨1, ![100000]⟩) (0 : Fin 1) _ _ hcat (ix1 e) rfl (ix1 ⟨e.val, h⟩) ?_).trans ?_
    · intro b
      match b with
      | ⟨0, _⟩ => rfl
    refine (shapeCast_apply _ hc (ix1 ⟨e.val, h⟩) (ix2 (0 : Fin 1) ⟨e.val, h⟩) ?_).trans ?_
    · rw [Shape.rowMajor_val_two, Shape.rowMajor_val_one]
      show 0 * 1200000 + e.val = e.val
      omega
    refine extractStridedSlice_apply off ei hs _ (ix2 a ⟨e.val, h⟩) ?_
    intro b
    match b with
    | ⟨0, _⟩ =>
      show a.val = off 0 + 0
      omega
    | ⟨1, _⟩ =>
      show e.val = off 1 + e.val
      omega
  · rw [dif_neg h]
    have he := e.isLt
    refine (concatenate_pair_apply_right (t := ⟨1, ![1300000]⟩) (s₁ := ⟨1, ![1200000]⟩) (s₂ := ⟨1, ![100000]⟩) (0 : Fin 1) _ _ hcat (ix1 e) rfl rfl (ix1 ⟨e.val - 1200000, by omega⟩) ?_ ?_).trans ?_
    · intro b hb
      exact absurd (Subsingleton.elim _ _) hb
    · show (e.val - 1200000) + 1200000 = e.val
      omega
    · rfl

theorem col_read {α : Type} {n : Nat} (hb : (⟨1, ![n]⟩ : Shape).BroadcastsInDim ⟨2, ![n, 1]⟩ ![0])
    (v : (⟨1, ![n]⟩ : Shape).Idx → α) (p : Fin n) :
    broadcastInDim ⟨2, ![n, 1]⟩ ![0] hb v (ix2 p (0 : Fin 1)) = v (ix1 p) := by
  refine broadcastInDim_apply ![0] hb v _ (ix1 p) ?_
  intro a
  match a with
  | ⟨0, _⟩ =>
    have hp := p.isLt
    show p.val = if n = 1 then 0 else p.val
    split
    · omega
    · rfl

theorem colCast_read {α : Type} {n : Nat} (hc : (⟨1, ![n]⟩ : Shape).ShapeCasts ⟨2, ![n, 1]⟩)
    (v : (⟨1, ![n]⟩ : Shape).Idx → α) (p : Fin n) :
    shapeCast ⟨2, ![n, 1]⟩ v hc (ix2 p (0 : Fin 1)) = v (ix1 p) := by
  refine shapeCast_apply v hc _ (ix1 p) ?_
  rw [Shape.rowMajor_val_two, Shape.rowMajor_val_one]
  show p.val = p.val * 1 + 0
  omega

theorem slt_zero_iff (w : BitVec 32) : IntOp.cmpi .slt w 0#32 = (1 : BitVec 1) ↔ w.toInt < 0 := by
  show BitVec.ofBool (w.slt 0#32) = 1#1 ↔ _
  rw [StableHlo.Predicate.ofBool_eq_one_iff, BitVec.slt_iff_toInt_lt]
  simp

theorem wrap_read (ws : IVec ⟨1, ![1300000]⟩ 32)
    (h0 h1 : (⟨0, ![]⟩ : Shape).BroadcastsInDim ⟨1, ![1300000]⟩ ![]) (e : Fin 1300000) :
    select (cmpi .slt ws (broadcastInDim ⟨1, ![1300000]⟩ ![] h0 (constantI ⟨0, ![]⟩ 32 0#32)))
        (addi ws (broadcastInDim ⟨1, ![1300000]⟩ ![] h1 (constantI ⟨0, ![]⟩ 32 100000#32))) ws (ix1 e)
      = wrap (ws (ix1 e)) := by
  show Scalar.select (IntOp.cmpi .slt (ws (ix1 e)) 0#32) (IntOp.addi (ws (ix1 e)) 100000#32) (ws (ix1 e)) = _
  unfold wrap Scalar.select IntOp.addi
  by_cases hneg : (ws (ix1 e)).toInt < 0
  · rw [if_pos ((slt_zero_iff _).2 hneg), if_pos hneg]
  · rw [if_neg (fun h => hneg ((slt_zero_iff _).1 h)), if_neg hneg]

theorem wrapCol_read (ws : IVec ⟨1, ![1300000]⟩ 32)
    (hb : (⟨1, ![1300000]⟩ : Shape).BroadcastsInDim ⟨2, ![1300000, 1]⟩ ![0])
    (h0 h1 : (⟨0, ![]⟩ : Shape).BroadcastsInDim ⟨1, ![1300000]⟩ ![]) (e : Fin 1300000) :
    broadcastInDim ⟨2, ![1300000, 1]⟩ ![0] hb
        (select (cmpi .slt ws (broadcastInDim ⟨1, ![1300000]⟩ ![] h0 (constantI ⟨0, ![]⟩ 32 0#32)))
          (addi ws (broadcastInDim ⟨1, ![1300000]⟩ ![] h1 (constantI ⟨0, ![]⟩ 32 100000#32))) ws) (ix2 e (0 : Fin 1))
      = wrap (ws (ix1 e)) :=
  (col_read hb _ e).trans (wrap_read ws h0 h1 e)

theorem hostRsqrt_apply {s : Shape} {φ : FTy} (x : FVec Ideal s φ) (i : s.Idx) :
    Host.rsqrt (F := Ideal) x i = Ideal.rsqrt (x i) := rfl

-- The inverse square root of the degree raised to at least one, read off the destination column.
theorem dOf_read (ei : IVec ⟨2, ![2, 1200000]⟩ 32)
    (d1 : ScatterDims ⟨1, ![100000]⟩ ⟨2, ![1300000, 1]⟩ ⟨1, ![1300000]⟩)
    (huw : d1.updateWindowDims = []) (hiw : d1.insertedWindowDims = [0]) (hsd : d1.scatterDimsToOperandDims = [0])
    (hivd : d1.indexVectorDim = 1)
    (hz hm : (⟨0, ![]⟩ : Shape).BroadcastsInDim ⟨1, ![100000]⟩ ![])
    (ho : (⟨0, ![]⟩ : Shape).BroadcastsInDim ⟨1, ![1300000]⟩ ![])
    (col : IVec ⟨2, ![1300000, 1]⟩ 32) (hcol : ∀ e : Fin 1300000, (col (ix2 e (0 : Fin 1))).toInt = dstOf ei e)
    (i : Fin 100000) :
    Host.rsqrt (F := Ideal) (φ := .f32) (maximumf (F := Ideal)
        (Host.scatterAdd (F := Ideal) (φ := .f32) d1
          (broadcastInDim ⟨1, ![100000]⟩ ![] hz (constant (F := Ideal) ⟨0, ![]⟩ .f32 0x00000000#32)) col
          (broadcastInDim ⟨1, ![1300000]⟩ ![] ho (constant (F := Ideal) ⟨0, ![]⟩ .f32 0x3F800000#32)))
        (broadcastInDim ⟨1, ![100000]⟩ ![] hm (constant (F := Ideal) ⟨0, ![]⟩ .f32 0x3F800000#32))) (ix1 i)
      = dOf ei i := by
  rw [hostRsqrt_apply, maximumf_apply, scatterAdd_vec d1 huw hiw hsd hivd _ col _ i, broadcastInDim_scalar_apply,
    broadcastInDim_scalar_apply, constant_apply, constant_apply, Ideal.ofBits_zero_f32, one_f32, zero_add]
  refine congrArg (fun t : EReal => Ideal.rsqrt (max t 1)) ?_
  unfold degOf segSum
  refine Finset.sum_congr (Finset.filter_congr fun e _ => by rw [hcol e]) fun e _ => ?_
  rw [broadcastInDim_scalar_apply, constant_apply, one_f32]

end Cert.GcnPool

end
-- ==== Proof.RefLayers.lean ====
import proofs.«430635_j91018946937353_3_alg».proof.Proof.Gen.ReferenceIdeal.Read
import proofs.«430635_j91018946937353_3_alg».proof.Proof.Graph
import proofs.«430635_j91018946937353_3_alg».proof.Proof.LibRowGatherScatter
import proofs.«430635_j91018946937353_3_alg».proof.Proof.GraphFacts
import proofs.«430635_j91018946937353_3_alg».proof.Proof.HostRead
import Idealize.ShloMosaic.Lib.KernelVsHost
import Idealize.ShloMosaic.Lib.ValueIdx
import Idealize.ShloMosaic.PureOps.Ideal.Laws

noncomputable section

namespace Cert.ReferenceIdeal.RefValue

open Idealize.ShloMosaic Idealize.ShloMosaic.ValueIdx Cert.GcnPool Cert.Gcn

section Reads

variable {α : Type}

theorem rect_of_column {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v _ (ix2 p 0) (fun a => match a with
    | ⟨0, _⟩ => by
      show p.val = if n = 1 then 0 else p.val
      have := p.isLt
      split <;> omega
    | ⟨1, _⟩ => by
      show (0 : Nat) = if (1 : Nat) = 1 then 0 else q.val
      rw [if_pos rfl])

theorem row_of_vector {m : Nat} (h : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h v (ix2 z q) = v (ix1 q) :=
  broadcastInDim_apply _ h v _ (ix1 q) (fun a => match a with
    | ⟨0, _⟩ => by
      show q.val = if m = 1 then 0 else q.val
      have := q.isLt
      split <;> omega)

end Reads

open Cert.ReferenceIdeal Cert.ReferenceIdeal.Gen Cert.ReferenceIdeal.Read

theorem layer_at
    (hw : FVec Ideal ⟨2, ![100000, 64]⟩ .f32) (dinv : FVec Ideal ⟨1, ![100000]⟩ .f32) (bias : FVec Ideal ⟨1, ![64]⟩ .f32)
    (zS zR : FVec Ideal ⟨0, ![]⟩ .f32)
    (lookRow lookSrc lookDst sumDst : IVec ⟨2, ![1300000, 1]⟩ 32)
    (src dstc : Fin 1300000 → Fin 100000) (dst : Fin 1300000 → ℤ) (d : Fin 100000 → EReal)
    (hzS : zS ix0 = 0) (hzR : zR ix0 = 0)
    (hRow : ∀ e, min (lookRow (ix2 e (0 : Fin 1))).toInt.toNat 99999 = (src e).val)
    (hSrc : ∀ e, min (lookSrc (ix2 e (0 : Fin 1))).toInt.toNat 99999 = (src e).val)
    (hDst : ∀ e, min (lookDst (ix2 e (0 : Fin 1))).toInt.toNat 99999 = (dstc e).val)
    (hSum : ∀ e, (sumDst (ix2 e (0 : Fin 1))).toInt = dst e)
    (hd : ∀ i, dinv (ix1 i) = d i)
    (i : Fin 100000) (k : Fin 64) :
    maximumf
      (addf
        (Host.scatterAdd (F := Ideal) (φ := .f32) scatter_S100000x64_S1300000x1_S1300000x64_1_0_0_1 (broadcastInDim ⟨2, ![100000, 64]⟩ ![] bcast_S_S100000x64 zS) sumDst
          (mulf (Host.gather gather_S100000x64_S1300000x1_S1300000x64_1_0_n_n_0_1_164 hw lookRow)
            (broadcastInDim ⟨2, ![1300000, 64]⟩ ![0, 1] bcast_S1300000x1_S1300000x64_0_1
              (broadcastInDim ⟨2, ![1300000, 1]⟩ ![0] bcast_S1300000_S1300000x1_0
                (mulf (Host.gather gather_S100000_S1300000x1_S1300000_n_0_n_n_0_1_1 dinv lookSrc) (Host.gather gather_S100000_S1300000x1_S1300000_n_0_n_n_0_1_1 dinv lookDst))))))
        (broadcastInDim ⟨2, ![100000, 64]⟩ ![0, 1] bcast_S1x64_S100000x64_0_1 (broadcastInDim ⟨2, ![1, 64]⟩ ![1] bcast_S64_S1x64_1 bias)))
      (broadcastInDim ⟨2, ![100000, 64]⟩ ![] bcast_S_S100000x64 zR) (ix2 i k)
    = pAct src dst dstc d (fun i k => hw (ix2 i k)) (fun k => bias (ix1 k)) i k := by
  rw [maximumf_apply, addf_apply, scatterAdd_rows scatter_S100000x64_S1300000x1_S1300000x64_1_0_0_1 rfl rfl rfl rfl, broadcastInDim_scalar_apply, broadcastInDim_scalar_apply,
    broadcastInDim_oneRow_apply, row_of_vector, hzS, hzR, zero_add]
  unfold pAct segSum
  refine congrArg (fun s : EReal => max (s + bias (ix1 k)) 0) (Finset.sum_congr ?_ fun e _ => ?_)
  · ext e
    simp only [Finset.mem_filter, Finset.mem_univ, true_and, hSum]
  have r0 : (⟨min (lookRow (ix2 e (0 : Fin 1))).toInt.toNat (100000 - 1), by omega⟩ : Fin 100000) = src e := Fin.ext (hRow e)
  have r1 : (⟨min (lookSrc (ix2 e (0 : Fin 1))).toInt.toNat (100000 - 1), by omega⟩ : Fin 100000) = src e := Fin.ext (hSrc e)
  have r2 : (⟨min (lookDst (ix2 e (0 : Fin 1))).toInt.toNat (100000 - 1), by omega⟩ : Fin 100000) = dstc e := Fin.ext (hDst e)
  rw [mulf_apply, gather_rows gather_S100000x64_S1300000x1_S1300000x64_1_0_n_n_0_1_164 rfl rfl rfl rfl rfl hw lookRow e k (by omega),
    rect_of_column, col_read, mulf_apply,
    gather_vec gather_S100000_S1300000x1_S1300000_n_0_n_n_0_1_1 rfl rfl rfl rfl dinv lookSrc e (by omega),
    gather_vec gather_S100000_S1300000x1_S1300000_n_0_n_n_0_1_1 rfl rfl rfl rfl dinv lookDst e (by omega), r0, r1, r2, hd, hd]

section Layers

variable (x0 : (⟨S100000x64, .f32⟩ : BufTy).Contents (Elt Ideal)) (x1 : (⟨S2x1200000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

theorem transform1_at (i : Fin 100000) (k : Fin 64) :
    val_main_v4 (F := Ideal) x0 x3 (ix2 i k) = lin (fun i j => x0 (ix2 i j)) (fun i j => x3 (ix2 i j)) i k := by
  rw [val_main_v4_apply]
  unfold lin
  refine Finset.sum_congr rfl (fun j _ => ?_)
  have el : lidx_main_v4 (ix2 i k) j = ix2 i j := by funext a; match a with | ⟨0, _⟩ => rfl | ⟨1, _⟩ => rfl
  have er : ridx_main_v4 (ix2 i k) j = ix2 j k := by funext a; match a with | ⟨0, _⟩ => rfl | ⟨1, _⟩ => rfl
  rw [el, er]

theorem act1_at (src dstc : Fin 1300000 → Fin 100000) (dst : Fin 1300000 → ℤ) (d : Fin 100000 → EReal)
    (hRow : ∀ e : Fin 1300000, min (val_main_v35 (F := Ideal) x1 (ix2 e (0 : Fin 1))).toInt.toNat 99999 = (src e).val)
    (hSrc : ∀ e : Fin 1300000, min (val_main_v20 (F := Ideal) x1 (ix2 e (0 : Fin 1))).toInt.toNat 99999 = (src e).val)
    (hDst : ∀ e : Fin 1300000, min (val_main_v27 (F := Ideal) x1 (ix2 e (0 : Fin 1))).toInt.toNat 99999 = (dstc e).val)
    (hSum : ∀ e : Fin 1300000, (val_main_v41 (F := Ideal) x1 (ix2 e (0 : Fin 1))).toInt = dst e)
    (hd : ∀ i : Fin 100000, val_main_v14 (F := Ideal) x1 (ix1 i) = d i)
    (n : Fin 100000) (k : Fin 64) :
    val_main_v46 (F := Ideal) x0 x1 x3 x4 (ix2 n k)
      = pAct1 src dst dstc d (fun i j => x0 (ix2 i j)) (fun i j => x3 (ix2 i j)) (fun j => x4 (ix1 j)) n k := by
  have h := layer_at
    (val_main_v4 (F := Ideal) x0 x3) (val_main_v14 (F := Ideal) x1) x4 (val_main_cst_7 (F := Ideal)) (val_main_call0_cst (F := Ideal))
    (val_main_v35 (F := Ideal) x1) (val_main_v20 (F := Ideal) x1) (val_main_v27 (F := Ideal) x1) (val_main_v41 (F := Ideal) x1)
    src dstc dst d Ideal.ofBits_zero_f32 Ideal.ofBits_zero_f32 hRow hSrc hDst hSum hd n k
  unfold pAct1
  rw [show lin (fun i j => x0 (ix2 i j)) (fun i j => x3 (ix2 i j)) = fun i k => val_main_v4 (F := Ideal) x0 x3 (ix2 i k) from
    funext fun i => funext fun k => (transform1_at x0 x3 i k).symm]
  exact h

theorem transform2_at (a1 : Fin 100000 → Fin 64 → EReal)
    (h1 : ∀ n k, val_main_v46 (F := Ideal) x0 x1 x3 x4 (ix2 n k) = a1 n k) (i : Fin 100000) (k : Fin 64) :
    val_main_v47 (F := Ideal) x0 x1 x3 x4 x5 (ix2 i k) = lin a1 (fun i j => x5 (ix2 i j)) i k := by
  rw [val_main_v47_apply]
  unfold lin
  refine Finset.sum_congr rfl (fun j _ => ?_)
  have el : lidx_main_v47 (ix2 i k) j = ix2 i j := by funext a; match a with | ⟨0, _⟩ => rfl | ⟨1, _⟩ => rfl
  have er : ridx_main_v47 (ix2 i k) j = ix2 j k := by funext a; match a with | ⟨0, _⟩ => rfl | ⟨1, _⟩ => rfl
  rw [el, er, h1]

theorem act2_at (src dstc : Fin 1300000 → Fin 100000) (dst : Fin 1300000 → ℤ) (d : Fin 100000 → EReal)
    (a1 : Fin 100000 → Fin 64 → EReal)
    (h1 : ∀ n k, val_main_v46 (F := Ideal) x0 x1 x3 x4 (ix2 n k) = a1 n k)
    (hRow : ∀ e : Fin 1300000, min (val_main_v78 (F := Ideal) x1 (ix2 e (0 : Fin 1))).toInt.toNat 99999 = (src e).val)
    (hSrc : ∀ e : Fin 1300000, min (val_main_v63 (F := Ideal) x1 (ix2 e (0 : Fin 1))).toInt.toNat 99999 = (src e).val)
    (hDst : ∀ e : Fin 1300000, min (val_main_v70 (F := Ideal) x1 (ix2 e (0 : Fin 1))).toInt.toNat 99999 = (dstc e).val)
    (hSum : ∀ e : Fin 1300000, (val_main_v84 (F := Ideal) x1 (ix2 e (0 : Fin 1))).toInt = dst e)
    (hd : ∀ i : Fin 100000, val_main_v57 (F := Ideal) x1 (ix1 i) = d i)
    (n : Fin 100000) (k : Fin 64) :
    val_main_v89 (F := Ideal) x0 x1 x3 x4 x5 x6 (ix2 n k)
      = pAct src dst dstc d (lin a1 (fun i j => x5 (ix2 i j))) (fun j => x6 (ix1 j)) n k := by
  have h := layer_at
    (val_main_v47 (F := Ideal) x0 x1 x3 x4 x5) (val_main_v57 (F := Ideal) x1) x6 (val_main_cst_17 (F := Ideal)) (val_main_call1_cst (F := Ideal))
    (val_main_v78 (F := Ideal) x1) (val_main_v63 (F := Ideal) x1) (val_main_v70 (F := Ideal) x1) (val_main_v84 (F := Ideal) x1)
    src dstc dst d Ideal.ofBits_zero_f32 Ideal.ofBits_zero_f32 hRow hSrc hDst hSum hd n k
  rw [show lin a1 (fun i j => x5 (ix2 i j)) = fun i k => val_main_v47 (F := Ideal) x0 x1 x3 x4 x5 (ix2 i k) from
    funext fun i => funext fun k => (transform2_at x0 x1 x3 x4 x5 a1 h1 i k).symm]
  exact h

end Layers

section Columns

variable (x1 : (⟨S2x1200000, .i32⟩ : BufTy).Contents (Elt Ideal))

theorem srcWords1 (e : Fin 1300000) : val_main_v6 (F := Ideal) x1 (ix1 e) = endWord x1 0 e :=
  endWord_read_of x1 0 ![0, 0] rfl rfl slices_S2x1200000_S1x1200000_0_0 shapeCasts_S1x1200000_S1200000 concatenates_S1200000_S100000_S1300000_d0 e

theorem dstWords1 (e : Fin 1300000) : val_main_v7 (F := Ideal) x1 (ix1 e) = endWord x1 1 e :=
  endWord_read_of x1 1 ![1, 0] rfl rfl slices_S2x1200000_S1x1200000_1_0 shapeCasts_S1x1200000_S1200000 concatenates_S1200000_S100000_S1300000_d0 e

theorem srcWords2 (e : Fin 1300000) : val_main_v49 (F := Ideal) x1 (ix1 e) = endWord x1 0 e :=
  endWord_read_of x1 0 ![0, 0] rfl rfl slices_S2x1200000_S1x1200000_0_0 shapeCasts_S1x1200000_S1200000 concatenates_S1200000_S100000_S1300000_d0 e

theorem dstWords2 (e : Fin 1300000) : val_main_v50 (F := Ideal) x1 (ix1 e) = endWord x1 1 e :=
  endWord_read_of x1 1 ![1, 0] rfl rfl slices_S2x1200000_S1x1200000_1_0 shapeCasts_S1x1200000_S1200000 concatenates_S1200000_S100000_S1300000_d0 e

-- A row looked up by an end point word: the word wrapped once if negative, then clamped into the rows.
theorem rowWord (ws : IVec S1300000 32) (a : Fin 2) (hw : ∀ e, ws (ix1 e) = endWord x1 a e) (e : Fin 1300000) :
    min (broadcastInDim S1300000x1 ![0] bcast_S1300000_S1300000x1_0
        (select (cmpi .slt ws (broadcastInDim S1300000 ![] bcast_S_S1300000 (constantI S_ 32 0#32)))
          (addi ws (broadcastInDim S1300000 ![] bcast_S_S1300000 (constantI S_ 32 100000#32))) ws) (ix2 e (0 : Fin 1))).toInt.toNat 99999
      = (rowOf (endWord x1 a e)).val := by
  rw [wrapCol_read ws _ _ _ e, hw]
  rfl

theorem sumCol1 (e : Fin 1300000) : val_main_v41 (F := Ideal) x1 (ix2 e (0 : Fin 1)) = endWord x1 1 e :=
  (col_read bcast_S1300000_S1300000x1_0 (val_main_v7 (F := Ideal) x1) e).trans (dstWords1 x1 e)

theorem invRoot1 (i : Fin 100000) : val_main_v14 (F := Ideal) x1 (ix1 i) = dOf x1 i :=
  dOf_read x1 scatter_S100000_S1300000x1_S1300000_n_0_0_1 rfl rfl rfl rfl bcast_S_S100000 bcast_S_S100000 bcast_S_S1300000
    (val_main_v10 (F := Ideal) x1)
    (fun e => congrArg BitVec.toInt ((col_read bcast_S1300000_S1300000x1_0 (val_main_v7 (F := Ideal) x1) e).trans (dstWords1 x1 e))) i

theorem sumCol2 (e : Fin 1300000) : val_main_v84 (F := Ideal) x1 (ix2 e (0 : Fin 1)) = endWord x1 1 e :=
  (col_read bcast_S1300000_S1300000x1_0 (val_main_v50 (F := Ideal) x1) e).trans (dstWords2 x1 e)

theorem invRoot2 (i : Fin 100000) : val_main_v57 (F := Ideal) x1 (ix1 i) = dOf x1 i :=
  dOf_read x1 scatter_S100000_S1300000x1_S1300000_n_0_0_1 rfl rfl rfl rfl bcast_S_S100000 bcast_S_S100000 bcast_S_S1300000
    (val_main_v53 (F := Ideal) x1)
    (fun e => congrArg BitVec.toInt ((col_read bcast_S1300000_S1300000x1_0 (val_main_v50 (F := Ideal) x1) e).trans (dstWords2 x1 e))) i

end Columns

section Rounds

variable (x0 : (⟨S100000x64, .f32⟩ : BufTy).Contents (Elt Ideal)) (x1 : (⟨S2x1200000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

theorem ref_act1 (n : Fin 100000) (k : Fin 64) :
    val_main_v46 (F := Ideal) x0 x1 x3 x4 (ix2 n k)
      = pAct1 (srcOf x1) (dstOf x1) (dstcOf x1) (dOf x1) (fun i j => x0 (ix2 i j)) (fun i j => x3 (ix2 i j))
          (fun j => x4 (ix1 j)) n k :=
  act1_at x0 x1 x3 x4 (srcOf x1) (dstcOf x1) (dstOf x1) (dOf x1)
    (rowWord x1 _ 0 (srcWords1 x1)) (rowWord x1 _ 0 (srcWords1 x1)) (rowWord x1 _ 1 (dstWords1 x1))
    (fun e => by rw [sumCol1 x1 e]; rfl) (invRoot1 x1) n k

theorem ref_act2 (n : Fin 100000) (k : Fin 64) :
    val_main_v89 (F := Ideal) x0 x1 x3 x4 x5 x6 (ix2 n k)
      = pAct2 (srcOf x1) (dstOf x1) (dstcOf x1) (dOf x1) (fun i j => x0 (ix2 i j)) (fun i j => x3 (ix2 i j))
          (fun i j => x5 (ix2 i j)) (fun j => x4 (ix1 j)) (fun j => x6 (ix1 j)) n k :=
  act2_at x0 x1 x3 x4 x5 x6 (srcOf x1) (dstcOf x1) (dstOf x1) (dOf x1) _ (ref_act1 x0 x1 x3 x4)
    (rowWord x1 _ 0 (srcWords2 x1)) (rowWord x1 _ 0 (srcWords2 x1)) (rowWord x1 _ 1 (dstWords2 x1))
    (fun e => by rw [sumCol2 x1 e]; rfl) (invRoot2 x1) n k

end Rounds

end Cert.ReferenceIdeal.RefValue

end
-- ==== Proof.RefValue.lean ====
import proofs.«430635_j91018946937353_3_alg».proof.Proof.Gen.ReferenceIdeal.Read
import proofs.«430635_j91018946937353_3_alg».proof.Proof.Graph
import proofs.«430635_j91018946937353_3_alg».proof.Proof.LibRowGatherScatter
import proofs.«430635_j91018946937353_3_alg».proof.Proof.GraphFacts
import proofs.«430635_j91018946937353_3_alg».proof.Proof.RefLayers

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Idealize.ShloMosaic.TcCoe Idealize.SL.Sem Cert.GcnPool

variable (x0 : (⟨S100000x64, .f32⟩ : BufTy).Contents (Elt Ideal)) (x1 : (⟨S2x1200000, .i32⟩ : BufTy).Contents (Elt Ideal))
  (x2 : (⟨S100000, .i32⟩ : BufTy).Contents (Elt Ideal)) (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal)) (x7 : (⟨S64x10, .f32⟩ : BufTy).Contents (Elt Ideal))
  (x8 : (⟨S10, .f32⟩ : BufTy).Contents (Elt Ideal))

theorem sums_word (n : Fin 100000) :
    val_main_v91 (F := Ideal) x2 (ix2 n (0 : Fin 1)) = x2 (ix1 n) := by
  rw [val_main_v91_apply]
  exact congrArg x2 (funext fun a => match a with | ⟨0, _⟩ => rfl)

theorem count_word (n : Fin 100000) :
    val_main_v95 (F := Ideal) x2 (ix2 n (0 : Fin 1)) = x2 (ix1 n) := by
  rw [val_main_v95_apply]
  exact congrArg x2 (funext fun a => match a with | ⟨0, _⟩ => rfl)

theorem sums_apply (g : Fin 256) (k : Fin 64) :
    val_main_v92 (F := Ideal) x0 x1 x2 x3 x4 x5 x6 (ix2 g k)
      = segSum (grpOf x2) (fun n k => val_main_v89 (F := Ideal) x0 x1 x3 x4 x5 x6 (ix2 n k)) g k := by
  unfold val_main_v92
  refine (Cert.Gcn.scatterAdd_rows scatter_S256x64_S100000x1_S100000x64_1_0_0_1 rfl rfl rfl rfl _ _ _ g k).trans ?_
  rw [val_main_v90_apply, val_main_cst_18_apply, Ideal.ofBits_def, Ideal.ofBits_zero_f32, zero_add]
  unfold segSum grpOf
  simp only [sums_word]

theorem count_apply (g : Fin 256) :
    val_main_v96 (F := Ideal) x2 (ix1 g) = segSum (C := 1) (grpOf x2) (fun _ _ => (1 : EReal)) g 0 := by
  unfold val_main_v96
  refine (scatterAdd_vec scatter_S256_S100000x1_S100000_n_0_0_1 rfl rfl rfl rfl _ _ _ g).trans ?_
  rw [val_main_v94_apply, val_main_cst_20_apply, Ideal.ofBits_def, Ideal.ofBits_zero_f32, zero_add]
  unfold segSum grpOf
  simp only [val_main_v93_apply, val_main_cst_19_apply, Ideal.ofBits_def, one_f32, count_word]

theorem divisor_apply (g : Fin 256) (k : Fin 64) :
    val_main_v100 (F := Ideal) x2 (ix2 g k) = max (segSum (C := 1) (grpOf x2) (fun _ _ => (1 : EReal)) g 0) 1 := by
  have hi : idx_main_v99 (idx_main_v100 (ix2 g k)) = ix1 g := funext fun a => match a with | ⟨0, _⟩ => rfl
  rw [val_main_v100_apply, val_main_v99_apply, hi, val_main_v98_apply, Ideal.maximumf_def, count_apply,
    val_main_v97_apply, val_main_cst_21_apply, Ideal.ofBits_def, one_f32]

theorem ref_pool (idx : S256x10.Idx) :
    val_main_v105 (F := Ideal) x0 x1 x2 x3 x4 x5 x6 x7 x8 idx
      = readOut (fun k o => x7 (ix2 k o)) (fun o => x8 (ix1 o))
          (fun g k => segSum (grpOf x2) (fun n k => val_main_v89 (F := Ideal) x0 x1 x3 x4 x5 x6 (ix2 n k)) g k)
          (fun g => segSum (C := 1) (grpOf x2) (fun _ _ => (1 : EReal)) g 0) (idx 0) (idx 1) := by
  obtain ⟨g, o, rfl⟩ : ∃ (g : Fin 256) (o : Fin 10), idx = ix2 g o := ⟨idx 0, idx 1, eq_ix2 idx⟩
  have hl : ∀ k : Fin 64, lidx_main_v102 (ix2 g o) k = ix2 g k := fun k =>
    funext fun a => match a with | ⟨0, _⟩ => rfl | ⟨1, _⟩ => rfl
  have hr : ∀ k : Fin 64, ridx_main_v102 (ix2 g o) k = ix2 k o := fun k =>
    funext fun a => match a with | ⟨0, _⟩ => rfl | ⟨1, _⟩ => rfl
  have hb : idx_main_v103 (idx_main_v104 (ix2 g o)) = ix1 o := funext fun a => match a with | ⟨0, _⟩ => rfl
  rw [val_main_v105_apply, val_main_v102_apply, val_main_v104_apply, val_main_v103_apply, hb, Ideal.addf_def]
  unfold readOut
  refine congrArg (· + x8 (ix1 o)) (Finset.sum_congr rfl fun k _ => ?_)
  rw [val_main_v101_apply, Ideal.hostDivf_def, hl, hr, sums_apply, divisor_apply]

theorem ref_value (idx : S256x10.Idx) :
    val_main_v105 (F := Ideal) x0 x1 x2 x3 x4 x5 x6 x7 x8 idx
      = pOut (srcOf x1) (dstOf x1) (dstcOf x1) (dOf x1) (grpOf x2) (fun i j => x0 (ix2 i j)) (fun i j => x3 (ix2 i j))
          (fun i j => x5 (ix2 i j)) (fun j => x4 (ix1 j)) (fun j => x6 (ix1 j)) (fun i j => x7 (ix2 i j))
          (fun j => x8 (ix1 j)) (idx 0) (idx 1) := by
  rw [ref_pool]
  unfold pOut
  simp only [ref_act2]

theorem res_eq (m : (ℓ : Loc nD τ sig) → Buf (Elt Ideal) ℓ) (c : Dev nD) :
    Cert.ReferenceIdeal.Value.res_main_v105 (F := Ideal) m c
      = val_main_v105 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  val_main_v105_eq m c

end Cert.ReferenceIdeal.RefValue

end
-- ==== Proof.K.R0.lean ====
import proofs.«430635_j91018946937353_3_alg».proof.Proof.Gen.Kernel.Launch
import proofs.«430635_j91018946937353_3_alg».proof.Proof.Gen.Kernel.Skeleton
import proofs.«430635_j91018946937353_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Layer0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_d : Rect S5000x1 := Rect.unit (s := S5000x1) ![0, 0] S5000x1.size inb_S5000x1_S5000x1_0_0

def out0_3 (x0 : Vec F S5000x64 .f32) (x1 : Vec F S64x64 .f32) (x2 : Vec F S5000x1 .f32) : Vec F S5000x64 .bf16 :=
  View.canon [⟨r0_x, k0_pay1 (View.ld x0 r0_x) (View.ld x1 r0_w) (View.ld x2 r0_d)⟩]

theorem cover0_3 (p0 : Vec F S5000x64 .bf16) (y : S5000x64.Idx) :
    ∃ pc ∈ ([⟨r0_x, p0⟩] : List (View.Piece (Elt F) S5000x64 .bf16)), y ∈ pc.1.set :=
  View.cover_of_tiled [⟨r0_x, p0⟩] S5000x64.size (by rfl) y

theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Layer0

end Cert.Kernel.Hand

end
-- ==== Proof.K.R1.lean ====
import proofs.«430635_j91018946937353_3_alg».proof.Proof.Gen.Kernel.Launch
import proofs.«430635_j91018946937353_3_alg».proof.Proof.Gen.Kernel.Skeleton
import proofs.«430635_j91018946937353_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Layer1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_d : Rect S5000x1 := Rect.unit (s := S5000x1) ![0, 0] S5000x1.size inb_S5000x1_S5000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

def out1_4 (x0 : Vec F S5000x64 .f32) (x1 : Vec F S5000x1 .f32) (x2 : Vec F S1x64 .f32) (x3 : Vec F S64x64 .f32) : Vec F S5000x64 .bf16 :=
  View.canon [⟨r1_a, k1_pay1 (View.ld x1 r1_d) (View.ld x0 r1_a) (View.ld x2 r1_b) (View.ld x3 r1_w) (View.ld x1 r1_d)⟩]

theorem cover1_4 (p0 : Vec F S5000x64 .bf16) (y : S5000x64.Idx) :
    ∃ pc ∈ ([⟨r1_a, p0⟩] : List (View.Piece (Elt F) S5000x64 .bf16)), y ∈ pc.1.set :=
  View.cover_of_tiled [⟨r1_a, p0⟩] S5000x64.size (by rfl) y

theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__linear_preact_scaled_kernel i arg1 harg1 arg2 harg2 arg3 harg3 arg4 harg4 arg5 harg5) K := by
  simp only [cc1__linear_preact_scaled_kernel_eq_skeleton]; unfold cc1__linear_preact_scaled_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Layer1

end Cert.Kernel.Hand

end
-- ==== Proof.K.R2Runs.lean ====
import proofs.«430635_j91018946937353_3_alg».proof.Proof.Gen.Kernel.Launch
import proofs.«430635_j91018946937353_3_alg».proof.Proof.Gen.Kernel.Skeleton
import proofs.«430635_j91018946937353_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Pool

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem liveAt2 : ∀ w : Fin cfg2.W, w ≠ 6 → ∀ t : Fin cfg2.N, cfg2.idle w (grid2.coords t) = false := by decide +kernel
theorem idleAt2_6 : ∀ t : Fin cfg2.N, t.val % 50 ≠ 49 → cfg2.idle 6 (grid2.coords t) = true := by decide +kernel
theorem noFlush2_6 : ∀ t : Fin cfg2.N, t.val % 50 ≠ 49 → (cfg2.win 6).flush t = false := by decide +kernel
theorem liveAt2_6 : ∀ t : Fin cfg2.N, t.val % 50 = 49 → cfg2.idle 6 (grid2.coords t) = false := by decide +kernel

abbrev VO2_6 : View sig .tc .vmem S256x10 .f32 := (Memref.whole cc2_stg6_0 : Memref sig .tc .vmem S256x10 .f32).view

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x10 .f32 := win2_6.stage (cfg2.slots t 6)
abbrev hs2_6 (t : Fin cfg2.N) : (ms2_6 t).IsWhole := hstage2_6 ((cfg2.slots t 6).cast nbuf2_6)

abbrev scM2_0 : Memref sig .tc .vmem S256x64 .f32 := Memref.whole cc2_scratch0

abbrev scM2_1 : Memref sig .tc .vmem S256x1 .f32 := Memref.whole cc2_scratch1

abbrev VS2_0 : View sig .tc .vmem S256x64 .f32 := scM2_0.view

abbrev VS2_1 : View sig .tc .vmem S256x1 .f32 := scM2_1.view

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

end Cert.Kernel.Hand

end
-- ==== Proof.K.R2Run.lean ====
import proofs.«430635_j91018946937353_3_alg».proof.Proof.K.R2Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- Owning a whole memref at x is holding it at the contents that read x.
theorem owns_eq_unread (c : Dev nD) {sp : Space} {sh : Shape} {e : EltTy} {a : Memref sig .tc sp sh e} (h : a.IsWhole) (x : sh.Idx → Elt F e) :
    (owns (c : Thread nD τ) a fullShare x : sProp 𝕄) = (a.view.loc (c : Thread nD τ) ↦[a.view.set]{fullShare} h.unread x) := by
  unfold owns
  refine BI.equiv_iff.mp ⟨?_, ?_⟩
  · show BIBase.Entails (PROP := sProp 𝕄) _ _
    iintro ⟨%f, %hf, H⟩; obtain rfl := h.eq_unread hf; iexact H
  · show BIBase.Entails (PROP := sProp 𝕄) _ _
    iintro H; iexists _; isplitr; · ipureintro; exact h.read_unread _
    iexact H

variable (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S64x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x64 .f32) (harg8 : arg8.IsWhole) (arg9 : Memref sig .tc .vmem S256x1 .f32) (harg9 : arg9.IsWhole)

-- the body's contract on whole memrefs: the six inputs pass through at x0 … x5; the output block and the two accumulators go in as p7 p8 p9 and come back as q7 q8 q9
def RunSpec2 (x0 : Vec F S2000x64 .f32) (x1 : Vec F S2000x1 .f32) (x2 : Vec F S1x64 .f32) (x3 : Vec F S2000x1 .i32) (x4 : Vec F S64x10 .f32) (x5 : Vec F S1x10 .f32) (p7 p8 p9 q7 q8 q9 : sProp 𝕄) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ p7 ∗ p8 ∗ p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ q7 ∗ q8 ∗ q9) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K

section First
variable (hc0 : cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32)

noncomputable def kernelRun2_A :
    Σ' (L6 : List (View.Piece (Elt F) S256x10 .f32)) (LS0 : List (View.Piece (Elt F) S256x64 .f32)), { LS1 : List (View.Piece (Elt F) S256x1 .f32) //
      ∀ (xi6 : Vec F S256x10 .f32), RunSpec2 c i arg1 harg1 arg2 harg2 arg3 harg3 arg4 harg4 arg5 harg5 arg6 harg6 arg7 harg7 arg8 harg8 arg9 harg9 x0 x1 x2 x3 x4 x5 (owns (c : Thread nD τ) arg7 fullShare xi6) iprop(∃ d, owns (c : Thread nD τ) arg8 fullShare d) iprop(∃ d, owns (c : Thread nD τ) arg9 fullShare d)
        (owns (c : Thread nD τ) arg7 fullShare xi6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨[], ?_, ?_, fun xi6 E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg7]
    unfold owns
    iintro ⟨H0, H1, H2, H3, H4, H5, H6, ⟨%ds0, %fs0, -, HS0⟩, ⟨%ds1, %fs1, -, HS1⟩, Hk⟩
    sl_exec (disch := first | exact hc0 | exact hc1)
    sl_step
    iapply Hk
    iframe H0 H1 H2 H3 H4 H5 H6
    isplitl [HS0]; · iexists _; iexact HS0
    iexists _; iexact HS1

end First

section Middle
variable (hc0 : ¬cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)

noncomputable def kernelRun2_B :
    Σ' (L6 : List (View.Piece (Elt F) S256x10 .f32)) (LS0 : List (View.Piece (Elt F) S256x64 .f32)), { LS1 : List (View.Piece (Elt F) S256x1 .f32) //
      ∀ (xi6 : Vec F S256x10 .f32), RunSpec2 c i arg1 harg1 arg2 harg2 arg3 harg3 arg4 harg4 arg5 harg5 arg6 harg6 arg7 harg7 arg8 harg8 arg9 harg9 x0 x1 x2 x3 x4 x5 (owns (c : Thread nD τ) arg7 fullShare xi6) (owns (c : Thread nD τ) arg8 fullShare xs0) (owns (c : Thread nD τ) arg9 fullShare xs1)
        (owns (c : Thread nD τ) arg7 fullShare xi6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨[], ?_, ?_, fun xi6 E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, H5, H6, HS0, HS1, Hk⟩
    sl_exec (disch := first | exact hc0 | exact hc1)
    sl_step
    iapply Hk
    iframe H0 H1 H2 H3 H4 H5 H6
    isplitl [HS0]; · iexists _; iexact HS0
    iexists _; iexact HS1

end Middle

section Last
variable (hc0 : ¬cond2_0 i) (hc1 : cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)

noncomputable def kernelRun2_C :
    Σ' (L6 : List (View.Piece (Elt F) S256x10 .f32)) (LS0 : List (View.Piece (Elt F) S256x64 .f32)), { LS1 : List (View.Piece (Elt F) S256x1 .f32) //
      RunSpec2 c i arg1 harg1 arg2 harg2 arg3 harg3 arg4 harg4 arg5 harg5 arg6 harg6 arg7 harg7 arg8 harg8 arg9 harg9 x0 x1 x2 x3 x4 x5 iprop(∃ d, owns (c : Thread nD τ) arg7 fullShare d) (owns (c : Thread nD τ) arg8 fullShare xs0) (owns (c : Thread nD τ) arg9 fullShare xs1)
        iprop(∃ f, arg7.view.loc (c : Thread nD τ) ↦[arg7.view.set]{fullShare} arg7.view.writes (Elt F) f L6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨?_, ?_, ?_, fun E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg8, owns_eq_unread c harg9]
    unfold owns
    iintro ⟨H0, H1, H2, H3, H4, H5, ⟨%d6, %f6, -, H6⟩, HS0, HS1, Hk⟩
    sl_exec (disch := first | exact hc0 | exact hc1)
    sl_step
    iapply Hk
    iframe H0 H1 H2 H3 H4 H5
    isplitl [H6]; · iexists _; iexact H6
    isplitl [HS0]; · iexists _; iexact HS0
    iexists _; iexact HS1

end Last

end Cert.Kernel.Hand

end
-- ==== Proof.K.R2.lean ====
import proofs.«430635_j91018946937353_3_alg».proof.Proof.K.R2Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what a run's three lists of writes leave in the output block, the sums and the counts
def reads2 {P : List (View.Piece (Elt F) S256x10 .f32) → List (View.Piece (Elt F) S256x64 .f32) → List (View.Piece (Elt F) S256x1 .f32) → Prop}
    (r : Σ' (L6 : List (View.Piece (Elt F) S256x10 .f32)) (LS0 : List (View.Piece (Elt F) S256x64 .f32)), { LS1 : List (View.Piece (Elt F) S256x1 .f32) // P L6 LS0 LS1 }) :
    Vec F S256x10 .f32 × Vec F S256x64 .f32 × Vec F S256x1 .f32 :=
  (VO2_6.read (Elt F) (VO2_6.writes (Elt F) VO2_6.junk r.1), VS2_0.read (Elt F) (VS2_0.writes (Elt F) VS2_0.junk r.2.1), VS2_1.read (Elt F) (VS2_1.writes (Elt F) VS2_1.junk r.2.2.1))

section Pieces
variable (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S64x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x64 .f32) (harg8 : arg8.IsWhole) (arg9 : Memref sig .tc .vmem S256x1 .f32) (harg9 : arg9.IsWhole)

section First
variable (hc0 : cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32)
include hc0 hc1

theorem scover2_A_0 (y : S256x64.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.1 S256x64.size (by sl_kernel_rfl) y

theorem scover2_A_1 (y : S256x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.2.1 S256x1.size (by sl_kernel_rfl) y

def outs2_A : Vec F S256x10 .f32 × Vec F S256x64 .f32 × Vec F S256x1 .f32 :=
  reads2 (kernelRun2_A c i arg1 harg1 arg2 harg2 arg3 harg3 arg4 harg4 arg5 harg5 arg6 harg6 arg7 harg7 arg8 harg8 arg9 harg9 hc0 hc1 x0 x1 x2 x3 x4 x5)

end First

section Middle
variable (hc0 : ¬cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem scover2_B_0 (y : S256x64.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.1 S256x64.size (by sl_kernel_rfl) y

theorem scover2_B_1 (y : S256x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.2.1 S256x1.size (by sl_kernel_rfl) y

def outs2_B : Vec F S256x10 .f32 × Vec F S256x64 .f32 × Vec F S256x1 .f32 :=
  reads2 (kernelRun2_B c i arg1 harg1 arg2 harg2 arg3 harg3 arg4 harg4 arg5 harg5 arg6 harg6 arg7 harg7 arg8 harg8 arg9 harg9 hc0 hc1 x0 x1 x2 x3 x4 x5 xs0 xs1)

end Middle

section Last
variable (hc0 : ¬cond2_0 i) (hc1 : cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem cover2_C_6 (y : S256x10.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).1 S256x10.size (by sl_kernel_rfl) y

theorem scover2_C_0 (y : S256x64.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.1 S256x64.size (by sl_kernel_rfl) y

theorem scover2_C_1 (y : S256x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.2.1 S256x1.size (by sl_kernel_rfl) y

def outs2_C : Vec F S256x10 .f32 × Vec F S256x64 .f32 × Vec F S256x1 .f32 :=
  reads2 (kernelRun2_C c i arg1 harg1 arg2 harg2 arg3 harg3 arg4 harg4 arg5 harg5 arg6 harg6 arg7 harg7 arg8 harg8 arg9 harg9 hc0 hc1 x0 x1 x2 x3 x4 x5 xs0 xs1)

end Last

end Pieces

-- a function of the body's nine memory arguments, taken at the ones of point t
abbrev atPt2 {α : Sort _} (t : Fin cfg2.N) (f : (arg1 : Memref sig .tc .vmem S2000x64 .f32) → arg1.IsWhole → (arg2 : Memref sig .tc .vmem S2000x1 .f32) → arg2.IsWhole → (arg3 : Memref sig .tc .vmem S1x64 .f32) → arg3.IsWhole → (arg4 : Memref sig .tc .vmem S2000x1 .i32) → arg4.IsWhole → (arg5 : Memref sig .tc .vmem S64x10 .f32) → arg5.IsWhole → (arg6 : Memref sig .tc .vmem S1x10 .f32) → arg6.IsWhole → (arg7 : Memref sig .tc .vmem S256x10 .f32) → arg7.IsWhole → (arg8 : Memref sig .tc .vmem S256x64 .f32) → arg8.IsWhole → (arg9 : Memref sig .tc .vmem S256x1 .f32) → arg9.IsWhole → α) : α :=
  f (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _)

section Pool

variable (V : (c : Dev nD) → (b : Ref sig .tc) → Buf (Elt F) ((c : Thread nD τ).loc b))

def outsAt2 (c : Dev nD) : (n : ℕ) → n < cfg2.N → Vec F S256x10 .f32 × Vec F S256x64 .f32 × Vec F S256x1 .f32
  | 0, hn => atPt2 ⟨0, hn⟩ (outs2_A c (grid2.coords ⟨0, hn⟩)) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn =>
    if h0 : (n + 1) % 50 = 0 then
      if h1 : (n + 1) % 50 = 49 then
        False.elim (by omega)
      else
        atPt2 ⟨n + 1, hn⟩ (outs2_A c (grid2.coords ⟨n + 1, hn⟩)) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
    else
      if h1 : (n + 1) % 50 = 49 then
        atPt2 ⟨n + 1, hn⟩ (outs2_C c (grid2.coords ⟨n + 1, hn⟩)) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2
      else
        atPt2 ⟨n + 1, hn⟩ (outs2_B c (grid2.coords ⟨n + 1, hn⟩)) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2

theorem outsAt2_A (c : Dev nD) (t : Fin cfg2.N) (h0 : t.val % 50 = 0) (h1 : ¬t.val % 50 = 49) :
    outsAt2 V c t.val t.isLt = atPt2 t (outs2_A c (grid2.coords t)) ((hcond2_0 t).mpr h0) (fun h => h1 ((hcond2_1 t).mp h)) (iblk2 V c 0 t) (iblk2 V c 1 t) (iblk2 V c 2 t) (iblk2 V c 3 t) (iblk2 V c 4 t) (iblk2 V c 5 t) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = atPt2 t (outs2_B c (grid2.coords t)) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = atPt2 t (outs2_C c (grid2.coords t)) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

-- the region's resting invariant with the sums s0 and the counts s1 named
def PhiAt2 (c : Dev nD) (s0 : Vec F S256x64 .f32) (s1 : Vec F S256x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare s0 ∗ owns (c : Thread nD τ) scM2_1 fullShare s1) ∗ (∃ r, prngReg c r))

def PhiS2 (c : Dev nD) : (n : ℕ) → n ≤ cfg2.N → sProp 𝕄
  | 0, _ => Pipeline.ΦA spec2 c
  | n + 1, hn => PhiAt2 c (outsAt2 V c n hn).2.1 (outsAt2 V c n hn).2.2

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = PhiAt2 c (outsAt2 V c n hn).2.1 (outsAt2 V c n hn).2.2 := rfl

theorem PhiS2_pos (c : Dev nD) (n : ℕ) (h : n ≤ cfg2.N) (hz : n ≠ 0) :
    PhiS2 V c n h = PhiAt2 c (outsAt2 V c (n - 1) (by omega)).2.1 (outsAt2 V c (n - 1) (by omega)).2.2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  unfold PhiAt2
  rw [show (dat2 V c).leavesExact 0 t = owns (c : Thread nD τ) (ms2_0 t) fullShare ((dat2 V c).after 0 t) from by
      unfold Dat.leavesExact; rw [liveAt2 0 (by decide) t], after2_0]
  rw [show (dat2 V c).leavesExact 1 t = owns (c : Thread nD τ) (ms2_1 t) fullShare ((dat2 V c).after 1 t) from by
      unfold Dat.leavesExact; rw [liveAt2 1 (by decide) t], after2_1]
  rw [show (dat2 V c).leavesExact 2 t = owns (c : Thread nD τ) (ms2_2 t) fullShare ((dat2 V c).after 2 t) from by
      unfold Dat.leavesExact; rw [liveAt2 2 (by decide) t], after2_2]
  rw [show (dat2 V c).leavesExact 3 t = owns (c : Thread nD τ) (ms2_3 t) fullShare ((dat2 V c).after 3 t) from by
      unfold Dat.leavesExact; rw [liveAt2 3 (by decide) t], after2_3]
  rw [show (dat2 V c).leavesExact 4 t = owns (c : Thread nD τ) (ms2_4 t) fullShare ((dat2 V c).after 4 t) from by
      unfold Dat.leavesExact; rw [liveAt2 4 (by decide) t], after2_4]
  rw [show (dat2 V c).leavesExact 5 t = owns (c : Thread nD τ) (ms2_5 t) fullShare ((dat2 V c).after 5 t) from by
      unfold Dat.leavesExact; rw [liveAt2 5 (by decide) t], after2_5]
  have hN : t.val < 50 := lt_of_lt_of_eq t.isLt (show cfg2.N = 50 from N_2)
  by_cases h0 : t.val % 50 = 0
  · by_cases h1 : t.val % 50 = 49
    · exfalso; omega
    · rw [Dat.leavesExact_idle (dat2 V c) 6 t (idleAt2_6 t h1) (noFlush2_6 t h1)]
      rw [outsAt2_A V c t h0 h1]
      unfold atPt2 outs2_A reads2; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        iexists _; iexact H6
      · exfalso; omega
  · by_cases h1 : t.val % 50 = 49
    · rw [show (dat2 V c).leavesExact 6 t = owns (c : Thread nD τ) (ms2_6 t) fullShare ((dat2 V c).after 6 t) from by
          unfold Dat.leavesExact; rw [liveAt2_6 t h1], after2_6]
      rw [outsAt2_C V c t h0 h1]
      unfold atPt2 outs2_C reads2; (try dsimp only)
      by_cases hz : t.val = 0
      · exfalso; omega
      · rw [PhiS2_castSucc V c t, PhiS2_pos V c _ _ hz]
        unfold PhiAt2
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _)
    · rw [Dat.leavesExact_idle (dat2 V c) 6 t (idleAt2_6 t h1) (noFlush2_6 t h1)]
      rw [outsAt2_B V c t h0 h1]
      unfold atPt2 outs2_B reads2; (try dsimp only)
      by_cases hz : t.val = 0
      · exfalso; omega
      · rw [PhiS2_castSucc V c t, PhiS2_pos V c _ _ hz]
        unfold PhiAt2
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _)
        iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold PhiAt2
  iintro ⟨⟨HR0, HR1, HR2, HR3, HR4, HR5, HR6, HR7, HR8, HR9, HR10, HR11, HR12, HR13, HR14, HS0, HS1⟩, Hg⟩
  iframe HR0 HR1 HR2 HR3 HR4 HR5 HR6 HR7 HR8 HR9 HR10 HR11 HR12 HR13 HR14 Hg
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 50 := N_2; omega)

end Pool

end Cert.Kernel.Hand

end
-- ==== Proof.K.Run.lean ====
import proofs.«430635_j91018946937353_3_alg».proof.Proof.K.R0
import proofs.«430635_j91018946937353_3_alg».proof.Proof.K.R1
import proofs.«430635_j91018946937353_3_alg».proof.Proof.K.R2
import proofs.«430635_j91018946937353_3_alg».proof.Proof.Gen.Kernel.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region

variable {p : Fin 3} (lf : Pipeline.LaunchFacts (nD := nD) (τ := τ) cfgs p) (W : Dev nD → Valuation τ sig (Elt F))
  (dat : (c : Dev nD) → Dat τ (Elt F) Unit ℕ (UR sig nD τ) ℕ (cfgs p) c)
  (hA : ∀ c w, (dat c).A w = W c (Proc.devRef .tc (Pipeline.arrRef (cfgs p).spec w)))

-- What a region entered at W leaves: its arrays at their final contents, everything else as entered.
abbrev past : Dev nD → Valuation τ sig (Elt F) := fun c =>
  Pipeline.withArrays (cfgs p).spec c (W c) fun w => (dat c).arrAt w (cfgs p).N
theorem past_of_ne (c : Dev nD) (b : Ref sig .tc) (hb : ∀ w, Pipeline.arrRef (cfgs p).spec w ≠ b) :
    past W dat c (Proc.devRef .tc b) = W c (Proc.devRef .tc b) :=
  Pipeline.withArrays_of_ne _ c _ _ b hb
include lf
theorem past_arr (c : Dev nD) (w : Fin (cfgs p).W) :
    past W dat c (Proc.devRef .tc (Pipeline.arrRef (cfgs p).spec w)) = (dat c).arrAt w (cfgs p).N :=
  Pipeline.withArrays_arr _ lf.win.arr_inj c _ _ w
include hA
-- An input window's array is never written, so its final contents are the entry contents.
theorem past_in (c : Dev nD) (w : Fin (cfgs p).W) (hin : ((cfgs p).win w).isOut = false) :
    past W dat c (Proc.devRef .tc (Pipeline.arrRef (cfgs p).spec w)) = W c (Proc.devRef .tc (Pipeline.arrRef (cfgs p).spec w)) :=
  (past_arr lf W dat c w).trans (((dat c).arrAt_in w hin _).trans (hA c w))
-- What is no output window's array is left as entered.
theorem past_keep (c : Dev nD) (b : Ref sig .tc) (h : ∀ w, Pipeline.arrRef (cfgs p).spec w = b → ((cfgs p).win w).isOut = false) :
    past W dat c (Proc.devRef .tc b) = W c (Proc.devRef .tc b) := by
  by_cases hb : ∃ w, Pipeline.arrRef (cfgs p).spec w = b
  · obtain ⟨w, rfl⟩ := hb; exact past_in lf W dat hA c w (h w rfl)
  · exact past_of_ne W dat c b fun w e => hb ⟨w, e⟩

end Region

abbrev atTc (W : Dev nD → Valuation τ sig (Elt F)) : (c : Dev nD) → (b : Ref sig .tc) → Buf (Elt F) ((c : Thread nD τ).loc b) := fun c b => W c b
abbrev W0 : Dev nD → Valuation τ sig (Elt F) := fun c b => (s₀ m ρ).mem ((c : Dev nD), b)
abbrev W1 : Dev nD → Valuation τ sig (Elt F) := fun c => StableHlo.after hostOps0 (W0 m ρ c)
abbrev V1 := atTc (W1 m ρ)
abbrev W2 : Dev nD → Valuation τ sig (Elt F) := past (p := 0) (W1 m ρ) (dat0 (V1 m ρ))
abbrev W3 : Dev nD → Valuation τ sig (Elt F) := fun c => StableHlo.after hostOps1 (W2 m ρ c)
abbrev V3 := atTc (W3 m ρ)
abbrev W4 : Dev nD → Valuation τ sig (Elt F) := past (p := 1) (W3 m ρ) (dat1 (V3 m ρ))
abbrev W5 : Dev nD → Valuation τ sig (Elt F) := fun c => StableHlo.after hostOps2 (W4 m ρ c)
abbrev V5 := atTc (W5 m ρ)
abbrev W6 : Dev nD → Valuation τ sig (Elt F) := past (p := 2) (W5 m ρ) (dat2 (V5 m ρ))

theorem W2_arr (c : Dev nD) (w : Fin cfg0.W) :
    W2 m ρ c (Proc.devRef .tc (Pipeline.arrRef spec0 w)) = (dat0 (V1 m ρ) c).arrAt w cfg0.N := past_arr launch0 _ _ c w
theorem W2_of_ne (c : Dev nD) (b : Ref sig .tc) (hb : ∀ w, Pipeline.arrRef spec0 w ≠ b) :
    W2 m ρ c (Proc.devRef .tc b) = W1 m ρ c (Proc.devRef .tc b) := past_of_ne _ _ c b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  past_in launch0 _ _ (A_eq0 _) c w hin
theorem W4_arr (c : Dev nD) (w : Fin cfg1.W) :
    W4 m ρ c (Proc.devRef .tc (Pipeline.arrRef spec1 w)) = (dat1 (V3 m ρ) c).arrAt w cfg1.N := past_arr launch1 _ _ c w
theorem W4_of_ne (c : Dev nD) (b : Ref sig .tc) (hb : ∀ w, Pipeline.arrRef spec1 w ≠ b) :
    W4 m ρ c (Proc.devRef .tc b) = W3 m ρ c (Proc.devRef .tc b) := past_of_ne _ _ c b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  past_in launch1 _ _ (A_eq1 _) c w hin

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

-- r lives between regions, no stretch between them writes it and no region has it as an output.
abbrev Kept (r : Ref sig .tc) : Prop :=
  ¬ (Proc.devRef .tc r : DevRef τ sig).isScoped ∧ r ∉ hostOps0_W ∧ r ∉ hostOps1_W ∧ r ∉ hostOps2_W
    ∧ (∀ w, Pipeline.arrRef spec0 w = r → (cfg0.win w).isOut = false)
    ∧ (∀ w, Pipeline.arrRef spec1 w = r → (cfg1.win w).isOut = false)
    ∧ ∀ w, Pipeline.arrRef spec2 w = r → (cfg2.win w).isOut = false
-- Such an r holds at the end what it held at launch: every stretch and every region leaves it alone.
theorem W6_kept (c : Dev nD) (r : Ref sig .tc) : Kept r → W6 m ρ c (Proc.devRef .tc r) = m ((c : Thread nD τ).loc r)
  | ⟨_, h0, h1, h2, k0, k1, k2⟩ =>
    (past_keep launch2 _ _ (A_eq2 _) c r k2).trans <| (W5_of m ρ c r h2).trans <| (past_keep launch1 _ _ (A_eq1 _) c r k1).trans <|
      (W3_of m ρ c r h1).trans <| (past_keep launch0 _ _ (A_eq0 _) c r k0).trans <| (W1_of m ρ c r h0).trans rfl

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
-- Beside the arrays the thread state holds the generator's state and the debts, none.
abbrev R (c : Dev nD) : sProp 𝕄 := iprop((∃ r, prngReg c r) ∗ ∃ W, owes (c : Thread nD τ) (0 : CellTallies nD τ sig Unit) W)
-- Between stretches: all that lives between regions at W, and R.
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment from T W to T (past W): its arrays leave the rest at entry and join it again, at their final contents, at exit.
def reg {p : Fin 3} (lf : Pipeline.LaunchFacts (nD := nD) (τ := τ) cfgs p) (W : Dev nD → Valuation τ sig (Elt F))
    (hbody : ∀ c, BodyObligation (pdats m ρ p c) (defs₀ (F := F)) Variants.none () Set.univ)
    (hA : ∀ c w, (pdats m ρ p c).A w = W c (Proc.devRef .tc (Pipeline.arrRef (cfgs p).spec w)))
    (hq : ∀ c w, (pdats m ρ p c).q w = fullShare) (ho : ∀ c t, (pdats m ρ p c).owed t = 0)
    (hr : ∀ c t, (pdats m ρ p c).recorded t = Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre := T W
  post := T (past W (pdats m ρ p))
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have hsplit := Pipeline.arrays_of_unscopedBufs (p := p) (pcfgs (F := F)) adm (pdats m ρ) lf.win lf.arr_whole c
      ((pdats m ρ p c).share_full (hq c)) (atTc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho]
      icases HO with ⟨%W, HO⟩; iexists W; isplitr; · ipureintro; exact fun _ _ => Or.inl (Set.eq_univ_iff_forall.1 (hr c _) _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc W c) (atTc (past W (pdats m ρ p)) c) ((pdats m ρ p c).arrAt · (cfgs p).N) (fun w => (past_arr lf W _ c w).symm)
      fun b hb => past_of_ne W _ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (body_obligation0 _) (A_eq0 _) (fun _ _ => rfl) (fun _ _ => rfl) (fun _ _ => rfl) (fun _ => .rfl) fun _ => .rfl),
    .host (hseg hostOps1 hostOps1_sub hostOps1_fresh (W2 m ρ)),
    .region (reg m ρ launch1 (W3 m ρ) (body_obligation1 _) (A_eq1 _) (fun _ _ => rfl) (fun _ _ => rfl) (fun _ _ => rfl) (fun _ => .rfl) fun _ => .rfl),
    .host (hseg hostOps2 hostOps2_sub hostOps2_fresh (W4 m ρ)),
    .region (reg m ρ launch2 (W5 m ρ) (body_obligation2 _) (A_eq2 _) (fun _ _ => rfl) (fun _ _ => rfl) (fun _ _ => rfl) (hin2 _) (hout2 _)) ]
theorem main_run (c : Dev nD) : main (F := F) c = Pipeline.Seg.run (segs m ρ) := (main_chain c).trans (by chain_rfl)

set_option backward.isDefEq.respectTransparency.types false in
-- Every fair execution ends without fault in a memory that agrees with W6 on all that lives between regions.
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

-- The nine inputs hold what they held at launch.
abbrev Framed (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

-- The run read at the result, the last region's final output array, and at the nine inputs.
theorem run_value : θ_run defs (onTc (τ := τ) (main (F := F))) ⟨m, fun _ => 0, ρ⟩ (fun r => ∀ c : Dev nD,
      r.2.mem ((c.tc : Thread nD τ).loc main_v43) = (dat2 (V5 m ρ) c).arrAt 6 cfg2.N ∧ Framed m r.2 c) :=
  (θ_run defs _ _).mono (fun r h c =>
    have k (r' : Ref sig .tc) (hr : Kept r') : r.2.mem ((c.tc : Thread nD τ).loc r') = m ((c.tc : Thread nD τ).loc r') :=
      (h c _ (mem_uc r' hr.1)).trans (W6_kept m ρ c r' hr)
    ⟨(h c _ (mem_uc main_v43 (by decide))).trans (past_arr launch2 _ _ c 6), k _ (by decide), k _ (by decide), k _ (by decide),
      k _ (by decide), k _ (by decide), k _ (by decide), k _ (by decide), k _ (by decide), k _ (by decide)⟩) (run_all m ρ)

theorem frame : θ_run defs (onTc (τ := τ) (main (F := F))) ⟨m, fun _ => 0, ρ⟩ (fun r => ∀ c : Dev nD, Framed m r.2 c) :=
  (θ_run defs _ _).mono (fun _ h c => (h c).2) (run_value m ρ)

end Cert.Kernel.Hand

end
-- ==== Proof.KI.R0.lean ====
import proofs.«430635_j91018946937353_3_alg».proof.Proof.Gen.KernelIdeal.Launch
import proofs.«430635_j91018946937353_3_alg».proof.Proof.Gen.KernelIdeal.Skeleton
import proofs.«430635_j91018946937353_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Layer0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_d : Rect S5000x1 := Rect.unit (s := S5000x1) ![0, 0] S5000x1.size inb_S5000x1_S5000x1_0_0

def out0_3 (x0 : Vec F S5000x64 .f32) (x1 : Vec F S64x64 .f32) (x2 : Vec F S5000x1 .f32) : Vec F S5000x64 .bf16 :=
  View.canon [⟨r0_x, k0_pay1 (View.ld x0 r0_x) (View.ld x1 r0_w) (View.ld x2 r0_d)⟩]

theorem cover0_3 (p0 : Vec F S5000x64 .bf16) (y : S5000x64.Idx) :
    ∃ pc ∈ ([⟨r0_x, p0⟩] : List (View.Piece (Elt F) S5000x64 .bf16)), y ∈ pc.1.set :=
  View.cover_of_tiled [⟨r0_x, p0⟩] S5000x64.size (by rfl) y

theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Layer0

end Cert.KernelIdeal.Hand

end
-- ==== Proof.KI.R1.lean ====
import proofs.«430635_j91018946937353_3_alg».proof.Proof.Gen.KernelIdeal.Launch
import proofs.«430635_j91018946937353_3_alg».proof.Proof.Gen.KernelIdeal.Skeleton
import proofs.«430635_j91018946937353_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Layer1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x64 := Rect.unit (s := S5000x64) ![0, 0] S5000x64.size inb_S5000x64_S5000x64_0_0
abbrev r1_d : Rect S5000x1 := Rect.unit (s := S5000x1) ![0, 0] S5000x1.size inb_S5000x1_S5000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

def out1_4 (x0 : Vec F S5000x64 .f32) (x1 : Vec F S5000x1 .f32) (x2 : Vec F S1x64 .f32) (x3 : Vec F S64x64 .f32) : Vec F S5000x64 .bf16 :=
  View.canon [⟨r1_a, k1_pay1 (View.ld x1 r1_d) (View.ld x0 r1_a) (View.ld x2 r1_b) (View.ld x3 r1_w) (View.ld x1 r1_d)⟩]

theorem cover1_4 (p0 : Vec F S5000x64 .bf16) (y : S5000x64.Idx) :
    ∃ pc ∈ ([⟨r1_a, p0⟩] : List (View.Piece (Elt F) S5000x64 .bf16)), y ∈ pc.1.set :=
  View.cover_of_tiled [⟨r1_a, p0⟩] S5000x64.size (by rfl) y

theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__linear_preact_scaled_kernel i arg1 harg1 arg2 harg2 arg3 harg3 arg4 harg4 arg5 harg5) K := by
  simp only [cc1__linear_preact_scaled_kernel_eq_skeleton]; unfold cc1__linear_preact_scaled_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Layer1

end Cert.KernelIdeal.Hand

end
-- ==== Proof.KI.R2Runs.lean ====
import proofs.«430635_j91018946937353_3_alg».proof.Proof.Gen.KernelIdeal.Launch
import proofs.«430635_j91018946937353_3_alg».proof.Proof.Gen.KernelIdeal.Skeleton
import proofs.«430635_j91018946937353_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Pool

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Pool

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem liveAt2 : ∀ w : Fin cfg2.W, w ≠ 6 → ∀ t : Fin cfg2.N, cfg2.idle w (grid2.coords t) = false := by decide +kernel
theorem idleAt2_6 : ∀ t : Fin cfg2.N, t.val % 50 ≠ 49 → cfg2.idle 6 (grid2.coords t) = true := by decide +kernel
theorem noFlush2_6 : ∀ t : Fin cfg2.N, t.val % 50 ≠ 49 → (cfg2.win 6).flush t = false := by decide +kernel
theorem liveAt2_6 : ∀ t : Fin cfg2.N, t.val % 50 = 49 → cfg2.idle 6 (grid2.coords t) = false := by decide +kernel

abbrev VO2_6 : View sig .tc .vmem S256x10 .f32 := (Memref.whole cc2_stg6_0 : Memref sig .tc .vmem S256x10 .f32).view

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x10 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x10 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x10 .f32 := win2_6.stage (cfg2.slots t 6)
abbrev hs2_6 (t : Fin cfg2.N) : (ms2_6 t).IsWhole := hstage2_6 ((cfg2.slots t 6).cast nbuf2_6)

abbrev scM2_0 : Memref sig .tc .vmem S256x64 .f32 := Memref.whole cc2_scratch0

abbrev scM2_1 : Memref sig .tc .vmem S256x1 .f32 := Memref.whole cc2_scratch1

abbrev VS2_0 : View sig .tc .vmem S256x64 .f32 := scM2_0.view

abbrev VS2_1 : View sig .tc .vmem S256x1 .f32 := scM2_1.view

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

end Cert.KernelIdeal.Hand

end
-- ==== Proof.KI.R2Run.lean ====
import proofs.«430635_j91018946937353_3_alg».proof.Proof.KI.R2Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- Owning a whole memref at x is holding it at the contents that read x.
theorem owns_eq_unread (c : Dev nD) {sp : Space} {sh : Shape} {e : EltTy} {a : Memref sig .tc sp sh e} (h : a.IsWhole) (x : sh.Idx → Elt F e) :
    (owns (c : Thread nD τ) a fullShare x : sProp 𝕄) = (a.view.loc (c : Thread nD τ) ↦[a.view.set]{fullShare} h.unread x) := by
  unfold owns
  refine BI.equiv_iff.mp ⟨?_, ?_⟩
  · show BIBase.Entails (PROP := sProp 𝕄) _ _
    iintro ⟨%f, %hf, H⟩; obtain rfl := h.eq_unread hf; iexact H
  · show BIBase.Entails (PROP := sProp 𝕄) _ _
    iintro H; iexists _; isplitr; · ipureintro; exact h.read_unread _
    iexact H

variable (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S64x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x64 .f32) (harg8 : arg8.IsWhole) (arg9 : Memref sig .tc .vmem S256x1 .f32) (harg9 : arg9.IsWhole)

-- the body's contract on whole memrefs: the six inputs pass through at x0 … x5; the output block and the two accumulators go in as p7 p8 p9 and come back as q7 q8 q9
def RunSpec2 (x0 : Vec F S2000x64 .f32) (x1 : Vec F S2000x1 .f32) (x2 : Vec F S1x64 .f32) (x3 : Vec F S2000x1 .i32) (x4 : Vec F S64x10 .f32) (x5 : Vec F S1x10 .f32) (p7 p8 p9 q7 q8 q9 : sProp 𝕄) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ p7 ∗ p8 ∗ p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ q7 ∗ q8 ∗ q9) -∗ K ⟨⟩))
      ⊢ wp frame (wpE (defs₀ (F := F)) Variants.none c none) E (cc2__pool_kernel i arg1 harg1 arg2 harg2 arg3 harg3 arg4 harg4 arg5 harg5 arg6 harg6 arg7 harg7 arg8 harg8 arg9 harg9) K

section First
variable (hc0 : cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32)

noncomputable def kernelRun2_A :
    Σ' (L6 : List (View.Piece (Elt F) S256x10 .f32)) (LS0 : List (View.Piece (Elt F) S256x64 .f32)), { LS1 : List (View.Piece (Elt F) S256x1 .f32) //
      ∀ (xi6 : Vec F S256x10 .f32), RunSpec2 c i arg1 harg1 arg2 harg2 arg3 harg3 arg4 harg4 arg5 harg5 arg6 harg6 arg7 harg7 arg8 harg8 arg9 harg9 x0 x1 x2 x3 x4 x5 (owns (c : Thread nD τ) arg7 fullShare xi6) iprop(∃ d, owns (c : Thread nD τ) arg8 fullShare d) iprop(∃ d, owns (c : Thread nD τ) arg9 fullShare d)
        (owns (c : Thread nD τ) arg7 fullShare xi6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨[], ?_, ?_, fun xi6 E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg7]
    unfold owns
    iintro ⟨H0, H1, H2, H3, H4, H5, H6, ⟨%ds0, %fs0, -, HS0⟩, ⟨%ds1, %fs1, -, HS1⟩, Hk⟩
    sl_exec (disch := first | exact hc0 | exact hc1)
    sl_step
    iapply Hk
    iframe H0 H1 H2 H3 H4 H5 H6
    isplitl [HS0]; · iexists _; iexact HS0
    iexists _; iexact HS1

end First

section Middle
variable (hc0 : ¬cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)

noncomputable def kernelRun2_B :
    Σ' (L6 : List (View.Piece (Elt F) S256x10 .f32)) (LS0 : List (View.Piece (Elt F) S256x64 .f32)), { LS1 : List (View.Piece (Elt F) S256x1 .f32) //
      ∀ (xi6 : Vec F S256x10 .f32), RunSpec2 c i arg1 harg1 arg2 harg2 arg3 harg3 arg4 harg4 arg5 harg5 arg6 harg6 arg7 harg7 arg8 harg8 arg9 harg9 x0 x1 x2 x3 x4 x5 (owns (c : Thread nD τ) arg7 fullShare xi6) (owns (c : Thread nD τ) arg8 fullShare xs0) (owns (c : Thread nD τ) arg9 fullShare xs1)
        (owns (c : Thread nD τ) arg7 fullShare xi6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨[], ?_, ?_, fun xi6 E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg7, owns_eq_unread c harg8, owns_eq_unread c harg9]
    iintro ⟨H0, H1, H2, H3, H4, H5, H6, HS0, HS1, Hk⟩
    sl_exec (disch := first | exact hc0 | exact hc1)
    sl_step
    iapply Hk
    iframe H0 H1 H2 H3 H4 H5 H6
    isplitl [HS0]; · iexists _; iexact HS0
    iexists _; iexact HS1

end Middle

section Last
variable (hc0 : ¬cond2_0 i) (hc1 : cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)

noncomputable def kernelRun2_C :
    Σ' (L6 : List (View.Piece (Elt F) S256x10 .f32)) (LS0 : List (View.Piece (Elt F) S256x64 .f32)), { LS1 : List (View.Piece (Elt F) S256x1 .f32) //
      RunSpec2 c i arg1 harg1 arg2 harg2 arg3 harg3 arg4 harg4 arg5 harg5 arg6 harg6 arg7 harg7 arg8 harg8 arg9 harg9 x0 x1 x2 x3 x4 x5 iprop(∃ d, owns (c : Thread nD τ) arg7 fullShare d) (owns (c : Thread nD τ) arg8 fullShare xs0) (owns (c : Thread nD τ) arg9 fullShare xs1)
        iprop(∃ f, arg7.view.loc (c : Thread nD τ) ↦[arg7.view.set]{fullShare} arg7.view.writes (Elt F) f L6) iprop(∃ f, arg8.view.loc (c : Thread nD τ) ↦[arg8.view.set]{fullShare} arg8.view.writes (Elt F) f LS0) iprop(∃ f, arg9.view.loc (c : Thread nD τ) ↦[arg9.view.set]{fullShare} arg9.view.writes (Elt F) f LS1) } := by
  refine ⟨?_, ?_, ?_, fun E K => ?run⟩
  case run =>
    simp only [cc2__pool_kernel_eq_skeleton]; unfold cc2__pool_kernel_skel
    simp only [k2_part1_eq_skeleton]
    rw [owns_eq_unread c harg1, owns_eq_unread c harg2, owns_eq_unread c harg3, owns_eq_unread c harg4, owns_eq_unread c harg5, owns_eq_unread c harg6, owns_eq_unread c harg8, owns_eq_unread c harg9]
    unfold owns
    iintro ⟨H0, H1, H2, H3, H4, H5, ⟨%d6, %f6, -, H6⟩, HS0, HS1, Hk⟩
    sl_exec (disch := first | exact hc0 | exact hc1)
    sl_step
    iapply Hk
    iframe H0 H1 H2 H3 H4 H5
    isplitl [H6]; · iexists _; iexact H6
    isplitl [HS0]; · iexists _; iexact HS0
    iexists _; iexact HS1

end Last

end Cert.KernelIdeal.Hand

end
-- ==== Proof.KI.R2.lean ====
import proofs.«430635_j91018946937353_3_alg».proof.Proof.KI.R2Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what a run's three lists of writes leave in the output block, the sums and the counts
def reads2 {P : List (View.Piece (Elt F) S256x10 .f32) → List (View.Piece (Elt F) S256x64 .f32) → List (View.Piece (Elt F) S256x1 .f32) → Prop}
    (r : Σ' (L6 : List (View.Piece (Elt F) S256x10 .f32)) (LS0 : List (View.Piece (Elt F) S256x64 .f32)), { LS1 : List (View.Piece (Elt F) S256x1 .f32) // P L6 LS0 LS1 }) :
    Vec F S256x10 .f32 × Vec F S256x64 .f32 × Vec F S256x1 .f32 :=
  (VO2_6.read (Elt F) (VO2_6.writes (Elt F) VO2_6.junk r.1), VS2_0.read (Elt F) (VS2_0.writes (Elt F) VS2_0.junk r.2.1), VS2_1.read (Elt F) (VS2_1.writes (Elt F) VS2_1.junk r.2.2.1))

section Pieces
variable (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S64x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x64 .f32) (harg8 : arg8.IsWhole) (arg9 : Memref sig .tc .vmem S256x1 .f32) (harg9 : arg9.IsWhole)

section First
variable (hc0 : cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32)
include hc0 hc1

theorem scover2_A_0 (y : S256x64.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.1 S256x64.size (by sl_kernel_rfl) y

theorem scover2_A_1 (y : S256x1.Idx) :
    ∃ pc ∈ (kernelRun2_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 hc1 x0 x1 x2 x3 x4 x5).2.2.1 S256x1.size (by sl_kernel_rfl) y

def outs2_A : Vec F S256x10 .f32 × Vec F S256x64 .f32 × Vec F S256x1 .f32 :=
  reads2 (kernelRun2_A c i arg1 harg1 arg2 harg2 arg3 harg3 arg4 harg4 arg5 harg5 arg6 harg6 arg7 harg7 arg8 harg8 arg9 harg9 hc0 hc1 x0 x1 x2 x3 x4 x5)

end First

section Middle
variable (hc0 : ¬cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem scover2_B_0 (y : S256x64.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.1 S256x64.size (by sl_kernel_rfl) y

theorem scover2_B_1 (y : S256x1.Idx) :
    ∃ pc ∈ (kernelRun2_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_B c i arg1 harg1 arg2 harg2 arg3 harg3 arg4 harg4 arg5 harg5 arg6 harg6 arg7 harg7 arg8 harg8 arg9 harg9 hc0 hc1 x0 x1 x2 x3 x4 x5 xs0 xs1).2.2.1 S256x1.size (by sl_kernel_rfl) y

def outs2_B : Vec F S256x10 .f32 × Vec F S256x64 .f32 × Vec F S256x1 .f32 :=
  reads2 (kernelRun2_B c i arg1 harg1 arg2 harg2 arg3 harg3 arg4 harg4 arg5 harg5 arg6 harg6 arg7 harg7 arg8 harg8 arg9 harg9 hc0 hc1 x0 x1 x2 x3 x4 x5 xs0 xs1)

end Middle

section Last
variable (hc0 : ¬cond2_0 i) (hc1 : cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem cover2_C_6 (y : S256x10.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).1 S256x10.size (by sl_kernel_rfl) y

theorem scover2_C_0 (y : S256x64.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.1 S256x64.size (by sl_kernel_rfl) y

theorem scover2_C_1 (y : S256x1.Idx) :
    ∃ pc ∈ (kernelRun2_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 hc0 hc1 x0 x1 x2 x3 x4 x5 xs0 xs1).2.2.1 S256x1.size (by sl_kernel_rfl) y

def outs2_C : Vec F S256x10 .f32 × Vec F S256x64 .f32 × Vec F S256x1 .f32 :=
  reads2 (kernelRun2_C c i arg1 harg1 arg2 harg2 arg3 harg3 arg4 harg4 arg5 harg5 arg6 harg6 arg7 harg7 arg8 harg8 arg9 harg9 hc0 hc1 x0 x1 x2 x3 x4 x5 xs0 xs1)

end Last

end Pieces

-- a function of the body's nine memory arguments, taken at the ones of point t
abbrev atPt2 {α : Sort _} (t : Fin cfg2.N) (f : (arg1 : Memref sig .tc .vmem S2000x64 .f32) → arg1.IsWhole → (arg2 : Memref sig .tc .vmem S2000x1 .f32) → arg2.IsWhole → (arg3 : Memref sig .tc .vmem S1x64 .f32) → arg3.IsWhole → (arg4 : Memref sig .tc .vmem S2000x1 .i32) → arg4.IsWhole → (arg5 : Memref sig .tc .vmem S64x10 .f32) → arg5.IsWhole → (arg6 : Memref sig .tc .vmem S1x10 .f32) → arg6.IsWhole → (arg7 : Memref sig .tc .vmem S256x10 .f32) → arg7.IsWhole → (arg8 : Memref sig .tc .vmem S256x64 .f32) → arg8.IsWhole → (arg9 : Memref sig .tc .vmem S256x1 .f32) → arg9.IsWhole → α) : α :=
  f (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _)

section Pool

variable (V : (c : Dev nD) → (b : Ref sig .tc) → Buf (Elt F) ((c : Thread nD τ).loc b))

def outsAt2 (c : Dev nD) : (n : ℕ) → n < cfg2.N → Vec F S256x10 .f32 × Vec F S256x64 .f32 × Vec F S256x1 .f32
  | 0, hn => atPt2 ⟨0, hn⟩ (outs2_A c (grid2.coords ⟨0, hn⟩)) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn =>
    if h0 : (n + 1) % 50 = 0 then
      if h1 : (n + 1) % 50 = 49 then
        False.elim (by omega)
      else
        atPt2 ⟨n + 1, hn⟩ (outs2_A c (grid2.coords ⟨n + 1, hn⟩)) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
    else
      if h1 : (n + 1) % 50 = 49 then
        atPt2 ⟨n + 1, hn⟩ (outs2_C c (grid2.coords ⟨n + 1, hn⟩)) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2
      else
        atPt2 ⟨n + 1, hn⟩ (outs2_B c (grid2.coords ⟨n + 1, hn⟩)) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2

theorem outsAt2_A (c : Dev nD) (t : Fin cfg2.N) (h0 : t.val % 50 = 0) (h1 : ¬t.val % 50 = 49) :
    outsAt2 V c t.val t.isLt = atPt2 t (outs2_A c (grid2.coords t)) ((hcond2_0 t).mpr h0) (fun h => h1 ((hcond2_1 t).mp h)) (iblk2 V c 0 t) (iblk2 V c 1 t) (iblk2 V c 2 t) (iblk2 V c 3 t) (iblk2 V c 4 t) (iblk2 V c 5 t) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = atPt2 t (outs2_B c (grid2.coords t)) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = atPt2 t (outs2_C c (grid2.coords t)) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

-- the region's resting invariant with the sums s0 and the counts s1 named
def PhiAt2 (c : Dev nD) (s0 : Vec F S256x64 .f32) (s1 : Vec F S256x1 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ owns (c : Thread nD τ) scM2_0 fullShare s0 ∗ owns (c : Thread nD τ) scM2_1 fullShare s1) ∗ (∃ r, prngReg c r))

def PhiS2 (c : Dev nD) : (n : ℕ) → n ≤ cfg2.N → sProp 𝕄
  | 0, _ => Pipeline.ΦA spec2 c
  | n + 1, hn => PhiAt2 c (outsAt2 V c n hn).2.1 (outsAt2 V c n hn).2.2

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = PhiAt2 c (outsAt2 V c n hn).2.1 (outsAt2 V c n hn).2.2 := rfl

theorem PhiS2_pos (c : Dev nD) (n : ℕ) (h : n ≤ cfg2.N) (hz : n ≠ 0) :
    PhiS2 V c n h = PhiAt2 c (outsAt2 V c (n - 1) (by omega)).2.1 (outsAt2 V c (n - 1) (by omega)).2.2 := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  unfold PhiAt2
  rw [show (dat2 V c).leavesExact 0 t = owns (c : Thread nD τ) (ms2_0 t) fullShare ((dat2 V c).after 0 t) from by
      unfold Dat.leavesExact; rw [liveAt2 0 (by decide) t], after2_0]
  rw [show (dat2 V c).leavesExact 1 t = owns (c : Thread nD τ) (ms2_1 t) fullShare ((dat2 V c).after 1 t) from by
      unfold Dat.leavesExact; rw [liveAt2 1 (by decide) t], after2_1]
  rw [show (dat2 V c).leavesExact 2 t = owns (c : Thread nD τ) (ms2_2 t) fullShare ((dat2 V c).after 2 t) from by
      unfold Dat.leavesExact; rw [liveAt2 2 (by decide) t], after2_2]
  rw [show (dat2 V c).leavesExact 3 t = owns (c : Thread nD τ) (ms2_3 t) fullShare ((dat2 V c).after 3 t) from by
      unfold Dat.leavesExact; rw [liveAt2 3 (by decide) t], after2_3]
  rw [show (dat2 V c).leavesExact 4 t = owns (c : Thread nD τ) (ms2_4 t) fullShare ((dat2 V c).after 4 t) from by
      unfold Dat.leavesExact; rw [liveAt2 4 (by decide) t], after2_4]
  rw [show (dat2 V c).leavesExact 5 t = owns (c : Thread nD τ) (ms2_5 t) fullShare ((dat2 V c).after 5 t) from by
      unfold Dat.leavesExact; rw [liveAt2 5 (by decide) t], after2_5]
  have hN : t.val < 50 := lt_of_lt_of_eq t.isLt (show cfg2.N = 50 from N_2)
  by_cases h0 : t.val % 50 = 0
  · by_cases h1 : t.val % 50 = 49
    · exfalso; omega
    · rw [Dat.leavesExact_idle (dat2 V c) 6 t (idleAt2_6 t h1) (noFlush2_6 t h1)]
      rw [outsAt2_A V c t h0 h1]
      unfold atPt2 outs2_A reads2; (try dsimp only)
      by_cases hz : t.val = 0
      · rw [PhiS2_castSucc V c t, PhiS2_zero V c _ _ hz, PhiA2_eq]
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _)
        iexists _; iexact H6
      · exfalso; omega
  · by_cases h1 : t.val % 50 = 49
    · rw [show (dat2 V c).leavesExact 6 t = owns (c : Thread nD τ) (ms2_6 t) fullShare ((dat2 V c).after 6 t) from by
          unfold Dat.leavesExact; rw [liveAt2_6 t h1], after2_6]
      rw [outsAt2_C V c t h0 h1]
      unfold atPt2 outs2_C reads2; (try dsimp only)
      by_cases hz : t.val = 0
      · exfalso; omega
      · rw [PhiS2_castSucc V c t, PhiS2_pos V c _ _ hz]
        unfold PhiAt2
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _ _ _ _ _ _ _ _ _ _)
    · rw [Dat.leavesExact_idle (dat2 V c) 6 t (idleAt2_6 t h1) (noFlush2_6 t h1)]
      rw [outsAt2_B V c t h0 h1]
      unfold atPt2 outs2_B reads2; (try dsimp only)
      by_cases hz : t.val = 0
      · exfalso; omega
      · rw [PhiS2_castSucc V c t, PhiS2_pos V c _ _ hz]
        unfold PhiAt2
        iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        iframe HR0 HR1 HR2 HR3 HR4 HR5 HR6 HR7 HR8 HR9 HR10 HR11 HR12 HR13 HR14 Hg Ho H0 H1 H2 H3 H4 H5
        isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _)
          unfold owns; iexists _; isplitr
          swap; · iexact HS1
          ipureintro; exact View.read_writes_of_cover _ _ _ _ _ (scover2_B_1 c _ _ _ _ _ _ _ _ _ _ _ _ _ _ _ _ _ _ _ _ _ _ _ _ _ _ _ _ _)
        iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold PhiAt2
  iintro ⟨⟨HR0, HR1, HR2, HR3, HR4, HR5, HR6, HR7, HR8, HR9, HR10, HR11, HR12, HR13, HR14, HS0, HS1⟩, Hg⟩
  iframe HR0 HR1 HR2 HR3 HR4 HR5 HR6 HR7 HR8 HR9 HR10 HR11 HR12 HR13 HR14 Hg
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 50 := N_2; omega)

end Pool

end Cert.KernelIdeal.Hand

end
-- ==== Proof.KI.Run.lean ====
import proofs.«430635_j91018946937353_3_alg».proof.Proof.KI.R0
import proofs.«430635_j91018946937353_3_alg».proof.Proof.KI.R1
import proofs.«430635_j91018946937353_3_alg».proof.Proof.KI.R2
import proofs.«430635_j91018946937353_3_alg».proof.Proof.Gen.KernelIdeal.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region

variable {p : Fin 3} (lf : Pipeline.LaunchFacts (nD := nD) (τ := τ) cfgs p) (W : Dev nD → Valuation τ sig (Elt F))
  (dat : (c : Dev nD) → Dat τ (Elt F) Unit ℕ (UR sig nD τ) ℕ (cfgs p) c)
  (hA : ∀ c w, (dat c).A w = W c (Proc.devRef .tc (Pipeline.arrRef (cfgs p).spec w)))

-- What a region entered at W leaves: its arrays at their final contents, everything else as entered.
abbrev past : Dev nD → Valuation τ sig (Elt F) := fun c =>
  Pipeline.withArrays (cfgs p).spec c (W c) fun w => (dat c).arrAt w (cfgs p).N
theorem past_of_ne (c : Dev nD) (b : Ref sig .tc) (hb : ∀ w, Pipeline.arrRef (cfgs p).spec w ≠ b) :
    past W dat c (Proc.devRef .tc b) = W c (Proc.devRef .tc b) :=
  Pipeline.withArrays_of_ne _ c _ _ b hb
include lf
theorem past_arr (c : Dev nD) (w : Fin (cfgs p).W) :
    past W dat c (Proc.devRef .tc (Pipeline.arrRef (cfgs p).spec w)) = (dat c).arrAt w (cfgs p).N :=
  Pipeline.withArrays_arr _ lf.win.arr_inj c _ _ w
include hA
-- An input window's array is never written, so its final contents are the entry contents.
theorem past_in (c : Dev nD) (w : Fin (cfgs p).W) (hin : ((cfgs p).win w).isOut = false) :
    past W dat c (Proc.devRef .tc (Pipeline.arrRef (cfgs p).spec w)) = W c (Proc.devRef .tc (Pipeline.arrRef (cfgs p).spec w)) :=
  (past_arr lf W dat c w).trans (((dat c).arrAt_in w hin _).trans (hA c w))
-- What is no output window's array is left as entered.
theorem past_keep (c : Dev nD) (b : Ref sig .tc) (h : ∀ w, Pipeline.arrRef (cfgs p).spec w = b → ((cfgs p).win w).isOut = false) :
    past W dat c (Proc.devRef .tc b) = W c (Proc.devRef .tc b) := by
  by_cases hb : ∃ w, Pipeline.arrRef (cfgs p).spec w = b
  · obtain ⟨w, rfl⟩ := hb; exact past_in lf W dat hA c w (h w rfl)
  · exact past_of_ne W dat c b fun w e => hb ⟨w, e⟩

end Region

abbrev atTc (W : Dev nD → Valuation τ sig (Elt F)) : (c : Dev nD) → (b : Ref sig .tc) → Buf (Elt F) ((c : Thread nD τ).loc b) := fun c b => W c b
abbrev W0 : Dev nD → Valuation τ sig (Elt F) := fun c b => (s₀ m ρ).mem ((c : Dev nD), b)
abbrev W1 : Dev nD → Valuation τ sig (Elt F) := fun c => StableHlo.after hostOps0 (W0 m ρ c)
abbrev V1 := atTc (W1 m ρ)
abbrev W2 : Dev nD → Valuation τ sig (Elt F) := past (p := 0) (W1 m ρ) (dat0 (V1 m ρ))
abbrev W3 : Dev nD → Valuation τ sig (Elt F) := fun c => StableHlo.after hostOps1 (W2 m ρ c)
abbrev V3 := atTc (W3 m ρ)
abbrev W4 : Dev nD → Valuation τ sig (Elt F) := past (p := 1) (W3 m ρ) (dat1 (V3 m ρ))
abbrev W5 : Dev nD → Valuation τ sig (Elt F) := fun c => StableHlo.after hostOps2 (W4 m ρ c)
abbrev V5 := atTc (W5 m ρ)
abbrev W6 : Dev nD → Valuation τ sig (Elt F) := past (p := 2) (W5 m ρ) (dat2 (V5 m ρ))

theorem W2_arr (c : Dev nD) (w : Fin cfg0.W) :
    W2 m ρ c (Proc.devRef .tc (Pipeline.arrRef spec0 w)) = (dat0 (V1 m ρ) c).arrAt w cfg0.N := past_arr launch0 _ _ c w
theorem W2_of_ne (c : Dev nD) (b : Ref sig .tc) (hb : ∀ w, Pipeline.arrRef spec0 w ≠ b) :
    W2 m ρ c (Proc.devRef .tc b) = W1 m ρ c (Proc.devRef .tc b) := past_of_ne _ _ c b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  past_in launch0 _ _ (A_eq0 _) c w hin
theorem W4_arr (c : Dev nD) (w : Fin cfg1.W) :
    W4 m ρ c (Proc.devRef .tc (Pipeline.arrRef spec1 w)) = (dat1 (V3 m ρ) c).arrAt w cfg1.N := past_arr launch1 _ _ c w
theorem W4_of_ne (c : Dev nD) (b : Ref sig .tc) (hb : ∀ w, Pipeline.arrRef spec1 w ≠ b) :
    W4 m ρ c (Proc.devRef .tc b) = W3 m ρ c (Proc.devRef .tc b) := past_of_ne _ _ c b hb
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  past_in launch1 _ _ (A_eq1 _) c w hin

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

-- r lives between regions, no stretch between them writes it and no region has it as an output.
abbrev Kept (r : Ref sig .tc) : Prop :=
  ¬ (Proc.devRef .tc r : DevRef τ sig).isScoped ∧ r ∉ hostOps0_W ∧ r ∉ hostOps1_W ∧ r ∉ hostOps2_W
    ∧ (∀ w, Pipeline.arrRef spec0 w = r → (cfg0.win w).isOut = false)
    ∧ (∀ w, Pipeline.arrRef spec1 w = r → (cfg1.win w).isOut = false)
    ∧ ∀ w, Pipeline.arrRef spec2 w = r → (cfg2.win w).isOut = false
-- Such an r holds at the end what it held at launch: every stretch and every region leaves it alone.
theorem W6_kept (c : Dev nD) (r : Ref sig .tc) : Kept r → W6 m ρ c (Proc.devRef .tc r) = m ((c : Thread nD τ).loc r)
  | ⟨_, h0, h1, h2, k0, k1, k2⟩ =>
    (past_keep launch2 _ _ (A_eq2 _) c r k2).trans <| (W5_of m ρ c r h2).trans <| (past_keep launch1 _ _ (A_eq1 _) c r k1).trans <|
      (W3_of m ρ c r h1).trans <| (past_keep launch0 _ _ (A_eq0 _) c r k0).trans <| (W1_of m ρ c r h0).trans rfl

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
-- Beside the arrays the thread state holds the generator's state and the debts, none.
abbrev R (c : Dev nD) : sProp 𝕄 := iprop((∃ r, prngReg c r) ∗ ∃ W, owes (c : Thread nD τ) (0 : CellTallies nD τ sig Unit) W)
-- Between stretches: all that lives between regions at W, and R.
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment from T W to T (past W): its arrays leave the rest at entry and join it again, at their final contents, at exit.
def reg {p : Fin 3} (lf : Pipeline.LaunchFacts (nD := nD) (τ := τ) cfgs p) (W : Dev nD → Valuation τ sig (Elt F))
    (hbody : ∀ c, BodyObligation (pdats m ρ p c) (defs₀ (F := F)) Variants.none () Set.univ)
    (hA : ∀ c w, (pdats m ρ p c).A w = W c (Proc.devRef .tc (Pipeline.arrRef (cfgs p).spec w)))
    (hq : ∀ c w, (pdats m ρ p c).q w = fullShare) (ho : ∀ c t, (pdats m ρ p c).owed t = 0)
    (hr : ∀ c t, (pdats m ρ p c).recorded t = Set.univ)
    (hin : ∀ c, Pipeline.ΦA (cfgs p).spec c ⊢ (pdats m ρ p c).Φ 0)
    (hout : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre := T W
  post := T (past W (pdats m ρ p))
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have hsplit := Pipeline.arrays_of_unscopedBufs (p := p) (pcfgs (F := F)) adm (pdats m ρ) lf.win lf.arr_whole c
      ((pdats m ρ p c).share_full (hq c)) (atTc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho]
      icases HO with ⟨%W, HO⟩; iexists W; isplitr; · ipureintro; exact fun _ _ => Or.inl (Set.eq_univ_iff_forall.1 (hr c _) _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc W c) (atTc (past W (pdats m ρ p)) c) ((pdats m ρ p c).arrAt · (cfgs p).N) (fun w => (past_arr lf W _ c w).symm)
      fun b hb => past_of_ne W _ c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ launch0 (W1 m ρ) (body_obligation0 _) (A_eq0 _) (fun _ _ => rfl) (fun _ _ => rfl) (fun _ _ => rfl) (fun _ => .rfl) fun _ => .rfl),
    .host (hseg hostOps1 hostOps1_sub hostOps1_fresh (W2 m ρ)),
    .region (reg m ρ launch1 (W3 m ρ) (body_obligation1 _) (A_eq1 _) (fun _ _ => rfl) (fun _ _ => rfl) (fun _ _ => rfl) (fun _ => .rfl) fun _ => .rfl),
    .host (hseg hostOps2 hostOps2_sub hostOps2_fresh (W4 m ρ)),
    .region (reg m ρ launch2 (W5 m ρ) (body_obligation2 _) (A_eq2 _) (fun _ _ => rfl) (fun _ _ => rfl) (fun _ _ => rfl) (hin2 _) (hout2 _)) ]
theorem main_run (c : Dev nD) : main (F := F) c = Pipeline.Seg.run (segs m ρ) := (main_chain c).trans (by chain_rfl)

set_option backward.isDefEq.respectTransparency.types false in
-- Every fair execution ends without fault in a memory that agrees with W6 on all that lives between regions.
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

-- The nine inputs hold what they held at launch.
abbrev Framed (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)

-- The run read at the result, the last region's final output array, and at the nine inputs.
theorem run_value : θ_run defs (onTc (τ := τ) (main (F := F))) ⟨m, fun _ => 0, ρ⟩ (fun r => ∀ c : Dev nD,
      r.2.mem ((c.tc : Thread nD τ).loc main_v43) = (dat2 (V5 m ρ) c).arrAt 6 cfg2.N ∧ Framed m r.2 c) :=
  (θ_run defs _ _).mono (fun r h c =>
    have k (r' : Ref sig .tc) (hr : Kept r') : r.2.mem ((c.tc : Thread nD τ).loc r') = m ((c.tc : Thread nD τ).loc r') :=
      (h c _ (mem_uc r' hr.1)).trans (W6_kept m ρ c r' hr)
    ⟨(h c _ (mem_uc main_v43 (by decide))).trans (past_arr launch2 _ _ c 6), k _ (by decide), k _ (by decide), k _ (by decide),
      k _ (by decide), k _ (by decide), k _ (by decide), k _ (by decide), k _ (by decide), k _ (by decide)⟩) (run_all m ρ)

theorem frame : θ_run defs (onTc (τ := τ) (main (F := F))) ⟨m, fun _ => 0, ρ⟩ (fun r => ∀ c : Dev nD, Framed m r.2 c) :=
  (θ_run defs _ _).mono (fun _ h c => (h c).2) (run_value m ρ)

end Cert.KernelIdeal.Hand

end
-- ==== Proof.LibReadAt.lean ====
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.GcnPool

open Idealize.ShloMosaic Idealize.ShloMosaic.ValueIdx

theorem offs_zero : (![0, 0] : Fin 2 → Nat) = fun _ => 0 := funext fun a => by fin_cases a <;> rfl

-- Every column of the spread of a one-column matrix is that column.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) :=
  broadcastTo_apply v h _ _ fun ax => match ax with
    | ⟨0, _⟩ => by show p.val = if a = 1 then 0 else p.val; have := p.isLt; split <;> omega
    | ⟨1, _⟩ => rfl

-- A product of an m × k by a k × n matrix added to zero is, entry by entry, the sum over the shared axis.
theorem matmul_plain_apply {m k n : ℕ} {φ₁ φ₂ : FTy} (l : FVec Ideal ⟨2, ![m, k]⟩ φ₁) (r : FVec Ideal ⟨2, ![k, n]⟩ φ₂)
    (p : Fin m) (q : Fin n) :
    matmul (DotDims.plain m k n) none l r (constant _ .f32 0x00000000#32) (ix2 p q) = ∑ c : Fin k, l (ix2 p c) * r (ix2 c q) := by
  rw [matmul_zero_eq_dotGeneral]
  exact StackMember.dotGeneral_plain_apply none l r p q

abbrev lhsT {K M N : ℕ} (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩

-- The same with the left factor k × m, both factors summed along their rows.
theorem matmul_lhsT_apply {K M N : ℕ} {φ₁ φ₂ : FTy} (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (g : Fin M) (k : Fin N) :
    matmul (lhsT w) none A B (constant _ .f32 0x00000000#32) (ix2 g k) = ∑ r : Fin K, A (ix2 r g) * B (ix2 r k) := by
  show FloatOps.matmul _ none A B _ (ix2 g k) = _
  rw [Ideal.matmul_constant_zero_apply, ← Equiv.sum_comp (contrEquiv1 (lhsT w) K rfl rfl).symm]
  refine Finset.sum_congr rfl fun r _ => ?_
  have hr := contrEquiv1_symm_val (lhsT w) K rfl rfl r
  have el : (lhsT w).lhsIdx (ix2 g k) ((contrEquiv1 _ K rfl rfl).symm r) = ix2 r g := by
    funext ax; apply Fin.ext
    match ax with
    | ⟨0, _⟩ => simp [DotDims.lhsIdx]; exact hr
    | ⟨1, _⟩ => simp [DotDims.lhsIdx]; rfl
  have er : (lhsT w).rhsIdx (ix2 g k) ((contrEquiv1 _ K rfl rfl).symm r) = ix2 r k := by
    funext ax; apply Fin.ext
    match ax with
    | ⟨0, _⟩ => simp [DotDims.rhsIdx]; exact hr
    | ⟨1, _⟩ => simp [DotDims.rhsIdx]; rfl
  rw [el, er]

end Cert.GcnPool

end
-- ==== Proof.Val0.lean ====
import proofs.«430635_j91018946937353_3_alg».proof.Proof.KI.R0
import proofs.«430635_j91018946937353_3_alg».proof.Proof.Spec
import proofs.«430635_j91018946937353_3_alg».proof.Proof.LibReadAt

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Cert.GcnPool Idealize.ShloMosaic.ValueIdx

-- What a tile stores: its rows of x · W, each scaled by the row's entry of the column.
theorem stored0_apply (x : Vec Ideal S5000x64 .f32) (W : Vec Ideal S64x64 .f32) (dv : Vec Ideal S5000x1 .f32) (p : Fin 5000) (q : Fin 64) :
    (k0_pay1 (F := Ideal) x W dv : S5000x64.Idx → EReal) (ix2 p q)
      = (dv (ix2 p (0 : Fin 1)) : EReal) * ∑ k : Fin 64, (x (ix2 p k) : EReal) * (W (ix2 k q) : EReal) := by
  unfold k0_pay1
  rw [truncf_apply, mulf_apply, shapeCast_self]
  exact congrArg₂ (fun a b : EReal => a * b) (broadcastTo_a1_ab_apply dv broadcasts_S5000x1_S5000x64 p q) (matmul_plain_apply _ _ p q)

section Array
variable (V : (c : Dev nD) → (b : Ref sig .tc) → Buf (Elt Ideal) ((c : Thread nD τ).loc b)) (c : Dev nD) (t : Fin cfg0.N)

def layer0 : S100000x64.Idx → EReal := fun idx =>
  tScaledLin (fun i => (V c main_v14 : S100000x1.Idx → EReal) (ix2 i 0)) (fun i j => (V c main_arg0 : S100000x64.Idx → EReal) (ix2 i j))
    (fun j k => (V c main_arg3 : S64x64.Idx → EReal) (ix2 j k)) (idx 0) (idx 1)

def rowAt (p : Fin 5000) : Fin 100000 :=
  ⟨5000 * t.val + p.val, by have h : t.val < 20 := lt_of_lt_of_eq t.isLt N_0; have := p.isLt; omega⟩

theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem featBlock_apply (p : Fin 5000) (k : Fin 64) :
    (iblk0 V c 0 t : S5000x64.Idx → EReal) (ix2 p k) = (V c main_arg0 : S100000x64.Idx → EReal) (ix2 (rowAt t p) k) := by
  obtain ⟨e0, e1, -⟩ := blockIndex0 t
  unfold iblk0
  rw [View.read_apply]
  show V c main_arg0 _ = V c main_arg0 _
  refine congrArg _ (Shape.idx_ext₂ ?_ ?_)
  · show win0_0.index t (0 : Fin 2) * 5000 + 1 * p.val = 5000 * t.val + p.val; rw [e0]; omega
  · show win0_0.index t (1 : Fin 2) * 64 + 1 * k.val = k.val; rw [e1]; omega

theorem weightBlock_apply (k q : Fin 64) :
    (iblk0 V c 1 t : S64x64.Idx → EReal) (ix2 k q) = (V c main_arg3 : S64x64.Idx → EReal) (ix2 k q) := by
  obtain ⟨-, -, e0, e1, -⟩ := blockIndex0 t
  unfold iblk0
  rw [View.read_apply]
  show V c main_arg3 _ = V c main_arg3 _
  refine congrArg _ (Shape.idx_ext₂ ?_ ?_)
  · show win0_1.index t (0 : Fin 2) * 64 + 1 * k.val = k.val; rw [e0]; omega
  · show win0_1.index t (1 : Fin 2) * 64 + 1 * q.val = q.val; rw [e1]; omega

theorem dinvBlock_apply (p : Fin 5000) :
    (iblk0 V c 2 t : S5000x1.Idx → EReal) (ix2 p (0 : Fin 1)) = (V c main_v14 : S100000x1.Idx → EReal) (ix2 (rowAt t p) (0 : Fin 1)) := by
  obtain ⟨-, -, -, -, e0, e1, -⟩ := blockIndex0 t
  unfold iblk0
  rw [View.read_apply]
  show V c main_v14 _ = V c main_v14 _
  refine congrArg _ (Shape.idx_ext₂ ?_ ?_)
  · show win0_2.index t (0 : Fin 2) * 5000 + 1 * p.val = 5000 * t.val + p.val; rw [e0]; omega
  · show win0_2.index t (1 : Fin 2) * 1 + 1 * 0 = 0; rw [e1]

theorem outBlock_emb (p : Fin 5000) (q : Fin 64) :
    (((cfg0.win 3).blk t).view.emb (ix2 p q) : S100000x64.Idx) = ix2 (rowAt t p) q := by
  obtain ⟨-, -, -, -, -, -, e0, e1⟩ := blockIndex0 t
  refine Shape.idx_ext₂ ?_ ?_
  · show win0_3.index t (0 : Fin 2) * 5000 + 1 * p.val = 5000 * t.val + p.val; rw [e0]; omega
  · show win0_3.index t (1 : Fin 2) * 64 + 1 * q.val = q.val; rw [e1]; omega

-- Tile t's block of the result is its rows of the layer.
theorem flushed0_eq :
    (dat0 (F := Ideal) V c).flushed 3 t = ((cfg0.win 3).blk t).view.read (Elt Ideal) (layer0 V c) := by
  show (cfg0.win 3).cut (grid0.coords t) ((dat0 (F := Ideal) V c).after 3 t) = _
  rw [after0_3]
  unfold out0_3
  rw [View.canon_unit_zero offs_zero]
  simp only [View.ld_unit_zero (S := S5000x64) offs_zero, View.ld_unit_zero (S := S64x64) offs_zero, View.ld_unit_zero (S := S5000x1) offs_zero]
  funext j
  obtain ⟨p, q, rfl⟩ : ∃ (p : Fin 5000) (q : Fin 64), j = ix2 p q := ⟨j 0, j 1, eq_ix2 j⟩
  show (k0_pay1 (F := Ideal) (iblk0 V c 0 t) (iblk0 V c 1 t) (iblk0 V c 2 t) : S5000x64.Idx → EReal) (ix2 p q)
    = layer0 V c (((cfg0.win 3).blk t).view.emb (ix2 p q))
  rw [stored0_apply, outBlock_emb, dinvBlock_apply]
  simp only [featBlock_apply, weightBlock_apply]
  rfl

-- The twenty tiles' row blocks cover the array.
theorem outBlocks_cover (i : S100000x64.Idx) :
    ∃ t : Fin cfg0.N, (cfg0.win 3).flush t = true ∧ i ∈ ((cfg0.win 3).blk t).view.set := by
  have hi0 := idx2_lt0 i
  have hi1 := idx2_lt1 i
  have hN : cfg0.N = 20 := N_0
  let t : Fin cfg0.N := ⟨(i 0).val / 5000, by rw [hN]; omega⟩
  have ht : t.val = (i 0).val / 5000 := rfl
  obtain ⟨-, -, -, -, -, -, e0, e1⟩ := blockIndex0 t
  refine ⟨t, flush0_3 t, ?_⟩
  show i ∈ ((View.whole main_v15).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

theorem final0 : ((dat0 (F := Ideal) V c).arrAt 3 cfg0.N : S100000x64.Idx → EReal) = fun idx =>
    tScaledLin (fun i => (V c main_v14 : S100000x1.Idx → EReal) (ix2 i 0)) (fun i j => (V c main_arg0 : S100000x64.Idx → EReal) (ix2 i j))
      (fun j k => (V c main_arg3 : S64x64.Idx → EReal) (ix2 j k)) (idx 0) (idx 1) :=
  (dat0 (F := Ideal) V c).arrAt_eq_of_cover 3 (layer0 V c) (fun t _ => flushed0_eq V c t) outBlocks_cover

end Array

end Cert.KernelIdeal.Val

end
-- ==== Proof.Val1.lean ====
import proofs.«430635_j91018946937353_3_alg».proof.Proof.KI.R1
import proofs.«430635_j91018946937353_3_alg».proof.Proof.Spec
import proofs.«430635_j91018946937353_3_alg».proof.Proof.LibReadAt
import Idealize.ShloMosaic.Lib.ValueLayout

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Cert.GcnPool Idealize.ShloMosaic.ValueIdx

-- What a tile stores: its rows of max (d ⊙ s + b, 0) · W, each scaled by the row's d.
theorem pay1_apply (v0 : Vec Ideal S5000x1 .f32) (v2 : Vec Ideal S5000x64 .f32) (v6 : Vec Ideal S1x64 .f32) (v13 : Vec Ideal S64x64 .f32)
    (v16 : Vec Ideal S5000x1 .f32) (p : Fin 5000) (q : Fin 64) :
    k1_pay1 (F := Ideal) v0 v2 v6 v13 v16 (ix2 p q)
      = v16 (ix2 p (0 : Fin 1)) * ∑ k : Fin 64, max (v0 (ix2 p (0 : Fin 1)) * v2 (ix2 p k) + v6 (ix2 (0 : Fin 1) k)) 0 * v13 (ix2 k q) := by
  unfold k1_pay1
  rw [truncf_apply, mulf_apply, broadcastTo_a1_ab_apply, shapeCast_self]
  refine congrArg (v16 (ix2 p (0 : Fin 1)) * ·) ((matmul_plain_apply _ _ p q).trans (Finset.sum_congr rfl fun k _ => ?_))
  rw [truncf_apply, truncf_apply, maximumf_apply, addf_apply, mulf_apply, broadcastTo_a1_ab_apply, shapeCast_self, shapeCast_self,
    broadcastTo_1b_ab_apply, shapeCast_self, broadcast_apply]
  show max _ (Ideal.ofBits .f32 0x00000000#32) * _ = _
  rw [Ideal.ofBits_zero_f32]

abbrev layer1 (d : S100000x1.Idx → EReal) (a : S100000x64.Idx → EReal) (b : S1x64.Idx → EReal) (W : S64x64.Idx → EReal) :
    S100000x64.Idx → EReal := fun idx =>
  tScaledLin (fun i => d (ix2 i 0)) (tAct (fun i => d (ix2 i 0)) (fun i j => a (ix2 i j)) (fun j => b (ix2 0 j)))
    (fun j k => W (ix2 j k)) (idx 0) (idx 1)

theorem idxFacts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b)) (c : Dev nD) (t : Fin cfg1.N)

theorem aggBlock1 (y : S5000x64.Idx) (k : S100000x64.Idx)
    (hk0 : (k 0).val = t.val * 5000 + (y 0).val) (hk1 : (k 1).val = (y 1).val) :
    (iblk1 V c 0 t : Vec Ideal S5000x64 .f32) y = (V c main_v26 : S100000x64.Idx → EReal) k := by
  obtain ⟨e0, e1, -⟩ := idxFacts1 t
  unfold iblk1
  rw [View.read_apply]
  show V c main_v26 _ = V c main_v26 _
  refine congrArg _ (Shape.idx_ext₂ ?_ ?_)
  · show win1_0.index t 0 * 5000 + 1 * (y 0).val = (k 0).val; rw [e0, hk0]; omega
  · show win1_0.index t 1 * 64 + 1 * (y 1).val = (k 1).val; rw [e1, hk1]; omega

theorem dinvBlock1 (y : S5000x1.Idx) (k : S100000x1.Idx)
    (hk0 : (k 0).val = t.val * 5000 + (y 0).val) (hk1 : (k 1).val = (y 1).val) :
    (iblk1 V c 1 t : Vec Ideal S5000x1 .f32) y = (V c main_v14 : S100000x1.Idx → EReal) k := by
  obtain ⟨-, -, e0, e1, -⟩ := idxFacts1 t
  unfold iblk1
  rw [View.read_apply]
  show V c main_v14 _ = V c main_v14 _
  refine congrArg _ (Shape.idx_ext₂ ?_ ?_)
  · show win1_1.index t 0 * 5000 + 1 * (y 0).val = (k 0).val; rw [e0, hk0]; omega
  · show win1_1.index t 1 * 1 + 1 * (y 1).val = (k 1).val; rw [e1, hk1]; omega

theorem biasBlock1 : (iblk1 V c 2 t : Vec Ideal S1x64 .f32) = (V c main_v27 : S1x64.Idx → EReal) := by
  obtain ⟨-, -, -, -, e0, e1, -⟩ := idxFacts1 t
  funext y
  unfold iblk1
  rw [View.read_apply]
  show V c main_v27 _ = V c main_v27 _
  refine congrArg _ (Shape.idx_ext₂ ?_ ?_)
  · show win1_2.index t 0 * 1 + 1 * (y 0).val = (y 0).val; rw [e0]; omega
  · show win1_2.index t 1 * 64 + 1 * (y 1).val = (y 1).val; rw [e1]; omega

theorem weightBlock1 : (iblk1 V c 3 t : Vec Ideal S64x64 .f32) = (V c main_arg5 : S64x64.Idx → EReal) := by
  obtain ⟨-, -, -, -, -, -, e0, e1, -⟩ := idxFacts1 t
  funext y
  unfold iblk1
  rw [View.read_apply]
  show V c main_arg5 _ = V c main_arg5 _
  refine congrArg _ (Shape.idx_ext₂ ?_ ?_)
  · show win1_3.index t 0 * 64 + 1 * (y 0).val = (y 0).val; rw [e0]; omega
  · show win1_3.index t 1 * 64 + 1 * (y 1).val = (y 1).val; rw [e1]; omega

end

-- A tile whose blocks are rows n·5000 … of d and of a stores those rows of the layer.
theorem block1_eq (x0 : Vec Ideal S5000x64 .f32) (x1 : Vec Ideal S5000x1 .f32) (x2 : Vec Ideal S1x64 .f32) (x3 : Vec Ideal S64x64 .f32)
    (d : S100000x1.Idx → EReal) (a : S100000x64.Idx → EReal) (n : ℕ) (j : S5000x64.Idx) (i : S100000x64.Idx)
    (hi0 : (i 0).val = n * 5000 + (j 0).val) (hi1 : (i 1).val = (j 1).val)
    (h1 : ∀ (y : S5000x1.Idx) (k : S100000x1.Idx), (k 0).val = n * 5000 + (y 0).val → (k 1).val = (y 1).val → x1 y = d k)
    (h0 : ∀ (y : S5000x64.Idx) (k : S100000x64.Idx), (k 0).val = n * 5000 + (y 0).val → (k 1).val = (y 1).val → x0 y = a k) :
    k1_pay1 (F := Ideal) x1 x0 x2 x3 x1 j = layer1 d a x2 x3 i := by
  obtain ⟨p, q, rfl⟩ : ∃ (p : Fin 5000) (q : Fin 64), j = ix2 p q := ⟨j 0, j 1, eq_ix2 j⟩
  rw [pay1_apply]
  have hq : i 1 = q := Fin.ext hi1
  have hd : x1 (ix2 p (0 : Fin 1)) = d (ix2 (i 0) (0 : Fin 1)) := h1 _ _ hi0 rfl
  have ha : ∀ k : Fin 64, x0 (ix2 p k) = a (ix2 (i 0) k) := fun k => h0 _ _ hi0 rfl
  show _ = tScaledLin _ _ _ (i 0) (i 1)
  unfold tScaledLin lin tAct
  rw [hd, hq]
  simp only [ha]

section
variable (V : (c : Dev nD) → (b : Ref sig .tc) → Buf (Elt Ideal) ((c : Thread nD τ).loc b)) (c : Dev nD)

theorem flushed1_eq (t : Fin cfg1.N) :
    (dat1 (F := Ideal) V c).flushed 4 t
      = ((cfg1.win 4).blk t).view.read (Elt Ideal) (layer1 (V c main_v14) (V c main_v26) (V c main_v27) (V c main_arg5)) := by
  show (cfg1.win 4).cut (grid1.coords t) ((dat1 V c).after 4 t) = _
  rw [after1_4]
  unfold out1_4
  rw [View.canon_unit_zero offs_zero]
  simp only [View.ld_unit_zero (S := S5000x64) offs_zero, View.ld_unit_zero (S := S5000x1) offs_zero,
    View.ld_unit_zero (S := S1x64) offs_zero, View.ld_unit_zero (S := S64x64) offs_zero]
  obtain ⟨-, -, -, -, -, -, -, -, e0, e1⟩ := idxFacts1 t
  funext j
  rw [biasBlock1 V c t, weightBlock1 V c t]
  refine block1_eq _ _ _ _ _ _ t.val j (((cfg1.win 4).blk t).view.emb j) ?_ ?_ (dinvBlock1 V c t) (aggBlock1 V c t)
  · show win1_4.index t 0 * 5000 + 1 * (j 0).val = t.val * 5000 + (j 0).val
    rw [e0]; omega
  · show win1_4.index t 1 * 64 + 1 * (j 1).val = (j 1).val
    rw [e1]; omega

theorem cover1 (i : S100000x64.Idx) :
    ∃ t : Fin cfg1.N, (cfg1.win 4).flush t = true ∧ i ∈ ((cfg1.win 4).blk t).view.set := by
  have hi0 := idx2_lt0 i
  have hi1 := idx2_lt1 i
  have hN : cfg1.N = 20 := N_1
  let t : Fin cfg1.N := ⟨(i 0).val / 5000, by rw [hN]; omega⟩
  obtain ⟨-, -, -, -, -, -, -, -, e0, e1⟩ := idxFacts1 t
  have ht : t.val = (i 0).val / 5000 := rfl
  refine ⟨t, flush1_4 t, ?_⟩
  show i ∈ ((View.whole main_v28).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 64 ≤ (i 1).val ∧ (i 1).val < win1_4.index t (1 : Fin 2) * 64 + 64; rw [e1]; omega

theorem final1 :
    ((dat1 (F := Ideal) V c).arrAt 4 cfg1.N : S100000x64.Idx → EReal) = fun idx =>
      tScaledLin (fun i => (V c main_v14 : S100000x1.Idx → EReal) (ix2 i 0))
        (tAct (fun i => (V c main_v14 : S100000x1.Idx → EReal) (ix2 i 0)) (fun i j => (V c main_v26 : S100000x64.Idx → EReal) (ix2 i j))
          (fun j => (V c main_v27 : S1x64.Idx → EReal) (ix2 0 j)))
        (fun j k => (V c main_arg5 : S64x64.Idx → EReal) (ix2 j k)) (idx 0) (idx 1) :=
  (dat1 (F := Ideal) V c).arrAt_eq_of_cover 4 (layer1 (V c main_v14) (V c main_v26) (V c main_v27) (V c main_arg5))
    (fun t _ => flushed1_eq V c t) cover1

end

end Cert.KernelIdeal.Val

end
-- ==== Proof.Val2Pay.lean ====
import proofs.«430635_j91018946937353_3_alg».proof.Proof.Gen.KernelIdeal.Skeleton
import proofs.«430635_j91018946937353_3_alg».proof.Proof.LibReadAt
import Idealize.ShloMosaic.Lib.ValueLayout
import Idealize.ShloMosaic.Lib.IdealHost
import Idealize.ShloMosaic.Lib.StableHlo.Predicate

noncomputable section

namespace Cert.KernelIdeal.Val

open Cert.KernelIdeal Cert.KernelIdeal.Gen Cert.GcnPool Idealize.ShloMosaic Idealize.ShloMosaic.ValueIdx
open scoped BigOperators

theorem word_eq_iff (w : BitVec 32) (g : Fin 256) : BitVec.ofNat 32 g.val = w ↔ w.toInt = (g.val : ℤ) := by
  have hg := StableHlo.Predicate.toInt_ofNat_small g.val (by have := g.isLt; omega)
  exact ⟨fun h => h ▸ hg, fun h => BitVec.eq_of_toInt_eq (hg.trans h.symm)⟩

theorem bit_reads (a b : BitVec 32) :
    ((((IntOp.cmpi .eq a b).setWidth 32).toInt : ℝ) : EReal) = if a = b then 1 else 0 := by
  by_cases h : a = b
  · rw [if_pos h, StableHlo.Predicate.cmpi_eq_iff.mpr h]; norm_num
  · rw [if_neg h, eq_zero_of_ne_one (fun h1 => h (StableHlo.Predicate.cmpi_eq_iff.mp h1))]; norm_num

-- The membership matrix: entry (r, g) is one exactly when row r's graph word reads g.
theorem onehot_apply (v16 : Vec Ideal S2000x1 .i32) (r : Fin 2000) (g : Fin 256) :
    k2_pay5 (F := Ideal) v16 (ix2 r g) = if (v16 (ix2 r 0)).toInt = (g.val : ℤ) then 1 else 0 := by
  unfold k2_pay5
  show ((((IntOp.cmpi .eq (iota .tc S2000x256 32 [1] iota_S2000x256_d1_w32 (ix2 r g))
      (broadcastTo S2000x256 _ broadcasts_S2000x1_S2000x256 (ix2 r g))).setWidth 32).toInt : ℝ) : EReal) = _
  rw [iota_single_apply, broadcastTo_a1_ab_apply, shapeCast_self, shapeCast_self, bit_reads]
  exact if_congr (word_eq_iff _ g) rfl rfl

theorem sums_apply (v3 : Vec Ideal S2000x1 .f32) (v5 : Vec Ideal S2000x64 .f32) (v9 : Vec Ideal S1x64 .f32)
    (v16 : Vec Ideal S2000x1 .i32) (v25 : Vec Ideal S256x64 .f32) (g : Fin 256) (k : Fin 64) :
    k2_pay6 (F := Ideal) v3 v5 v9 v16 v25 (ix2 g k)
      = v25 (ix2 g k) + ∑ r : Fin 2000, (if (v16 (ix2 r 0)).toInt = (g.val : ℤ) then (1 : EReal) else 0)
          * max (v3 (ix2 r 0) * v5 (ix2 r k) + v9 (ix2 0 k)) 0 := by
  unfold k2_pay6
  rw [shapeCast_self]
  refine congrArg (v25 (ix2 g k) + ·) ((matmul_lhsT_apply _ _ _ g k).trans (Finset.sum_congr rfl fun r _ => ?_))
  refine congrArg₂ (fun a b : EReal => a * b) (onehot_apply v16 r g) ?_
  show max (broadcastTo S2000x64 (shapeCast S2000x1 v3 shapeCasts_S2000x1_S2000x1) broadcasts_S2000x1_S2000x64 (ix2 r k)
        * shapeCast S2000x64 v5 shapeCasts_S2000x64_S2000x64 (ix2 r k)
      + broadcastTo S2000x64 (shapeCast S1x64 v9 shapeCasts_S1x64_S1x64) broadcasts_S1x64_S2000x64 (ix2 r k))
      (Ideal.ofBits .f32 0x00000000#32) = _
  rw [shapeCast_self, shapeCast_self, shapeCast_self, broadcastTo_a1_ab_apply, broadcastTo_1b_ab_apply, Ideal.ofBits_zero_f32]

theorem cnt_apply (v16 : Vec Ideal S2000x1 .i32) (v32 : Vec Ideal S256x1 .f32) (g : Fin 256) :
    k2_pay1 (F := Ideal) (k2_pay7 (F := Ideal) v16 v32) (ix2 g 0)
      = v32 (ix2 g 0) + ∑ r : Fin 2000, (if (v16 (ix2 r 0)).toInt = (g.val : ℤ) then (1 : EReal) else 0) * 1 := by
  unfold k2_pay1 k2_pay7
  dsimp only
  rw [shapeCast_self]
  refine congrArg (v32 (ix2 g 0) + ·) ((matmul_lhsT_apply _ _ _ g 0).trans (Finset.sum_congr rfl fun r _ => ?_))
  exact congrArg₂ (fun a b : EReal => a * b) (onehot_apply v16 r g) Ideal.ofBits_one_bf16

theorem out_apply (v41 : Vec Ideal S256x64 .f32) (v42 : Vec Ideal S256x1 .f32) (v48 : Vec Ideal S64x10 .f32)
    (v51 : Vec Ideal S1x10 .f32) (g : Fin 256) (o : Fin 10) :
    k2_pay2 (F := Ideal) v41 v42 v48 v51 (ix2 g o)
      = (∑ k : Fin 64, Ideal.div (v41 (ix2 g k)) (max (v42 (ix2 g 0)) 1) * v48 (ix2 k o)) + v51 (ix2 0 o) := by
  unfold k2_pay2
  rw [shapeCast_self]
  refine (addf_apply _ _ _).trans ?_
  rw [broadcastTo_1b_ab_apply]
  refine congrArg (· + v51 (ix2 0 o)) ((matmul_plain_apply _ _ g o).trans (Finset.sum_congr rfl fun k _ => ?_))
  show Ideal.div (v41 (ix2 g k))
      (broadcastTo S256x64 (maximumf v42 (broadcast S256x1 (Scalar.ofBits (F := Ideal) .f32 0x3F800000#32)))
        broadcasts_S256x1_S256x64 (ix2 g k)) * v48 (ix2 k o) = _
  rw [broadcastTo_a1_ab_apply]
  show Ideal.div (v41 (ix2 g k)) (max (v42 (ix2 g 0)) (Ideal.ofBits .f32 0x3F800000#32)) * _ = _
  rw [Ideal.ofBits_one_f32]

theorem zeros64_apply (g : Fin 256) (k : Fin 64) : k2_pay3 (F := Ideal) (ix2 g k) = 0 := by
  unfold k2_pay3
  rw [shapeCast_self]
  exact Ideal.ofBits_zero_f32

theorem zeros1_apply (g : Fin 256) : k2_pay4 (F := Ideal) (ix2 g 0) = 0 := by
  unfold k2_pay4
  rw [shapeCast_self]
  exact Ideal.ofBits_zero_f32

end Cert.KernelIdeal.Val

end
-- ==== Proof.Val2.lean ====
import proofs.«430635_j91018946937353_3_alg».proof.Proof.KI.R2
import proofs.«430635_j91018946937353_3_alg».proof.Proof.Val2Pay
import proofs.«430635_j91018946937353_3_alg».proof.Proof.Spec
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Cert.GcnPool Idealize.ShloMosaic.ValueIdx
open scoped BigOperators

section Pieces
variable {F : FTy → Type} [FloatOps F]

theorem poolOffs_zero : (![0, 0] : Fin 2 → Nat) = fun _ => 0 := funext fun a => by fin_cases a <;> rfl

variable (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S64x10 .f32) (harg5 : arg5.IsWhole) (arg6 : Memref sig .tc .vmem S1x10 .f32) (harg6 : arg6.IsWhole) (arg7 : Memref sig .tc .vmem S256x10 .f32) (harg7 : arg7.IsWhole) (arg8 : Memref sig .tc .vmem S256x64 .f32) (harg8 : arg8.IsWhole) (arg9 : Memref sig .tc .vmem S256x1 .f32) (harg9 : arg9.IsWhole)

section First
variable (hc0 : cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32)
include hc0 hc1

theorem firstSums_eq :
    VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 x0 x1 x2 x3 x4 x5).2.1) = k2_pay6 x1 x0 x2 x3 (k2_pay3 (F := F)) := by
  rw [View.read_writes_eq_canon _ _ _ (scover2_A_0 _ _ _ _ _ _ _ _ _ _ _ _ _ _ _ _ _ _ _ _ _ _ _ _ _ _ _ _)]
  unfold kernelRun2_A
  dsimp only
  try sl_unfold_words
  rw [View.canon_cons_unit_zero (S := S256x64) poolOffs_zero, View.readCov_unit_zero (S := S256x64) _ poolOffs_zero]
  simp only [View.readAt_eq_ld, harg1.read_unread, harg2.read_unread, harg3.read_unread, harg4.read_unread, View.ld_unit_zero (S := S2000x64) poolOffs_zero, View.ld_unit_zero (S := S2000x1) poolOffs_zero, View.ld_unit_zero (S := S1x64) poolOffs_zero]

theorem firstCounts_eq :
    VS2_1.read (Elt F) (VS2_1.writes (Elt F) VS2_1.junk (kernelRun2_A c i arg1 harg1 arg2 harg2 arg3 harg3 arg4 harg4 arg5 harg5 arg6 harg6 arg7 harg7 arg8 harg8 arg9 harg9 hc0 hc1 x0 x1 x2 x3 x4 x5).2.2.1) = k2_pay1 (k2_pay7 x3 (k2_pay4 (F := F))) := by
  rw [View.read_writes_eq_canon _ _ _ (scover2_A_1 _ _ _ _ _ _ _ _ _ _ _ _ _ _ _ _ _ _ _ _ _ _ _ _ _ _ _ _)]
  unfold kernelRun2_A
  dsimp only
  try sl_unfold_words
  rw [View.canon_cons_unit_zero (S := S256x1) poolOffs_zero, View.readCov_unit_zero (S := S256x1) _ poolOffs_zero]
  simp only [View.readAt_eq_ld, harg4.read_unread, View.ld_unit_zero (S := S2000x1) poolOffs_zero]

end First

section Middle
variable (hc0 : ¬cond2_0 i) (hc1 : ¬cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem midSums_eq :
    VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 x0 x1 x2 x3 x4 x5 xs0 xs1).2.1) = k2_pay6 x1 x0 x2 x3 xs0 := by
  rw [View.read_writes_eq_canon _ _ _ (scover2_B_0 _ _ _ _ _ _ _ _ _ _ _ _ _ _ _ _ _ _ _ _ _ _ _ _ _ _ _ _ _ _)]
  unfold kernelRun2_B
  dsimp only
  try sl_unfold_words
  rw [View.canon_unit_zero (S := S256x64) poolOffs_zero]
  simp only [View.readAt_eq_ld, harg1.read_unread, harg2.read_unread, harg3.read_unread, harg4.read_unread, harg8.read_unread, View.ld_unit_zero (S := S2000x64) poolOffs_zero, View.ld_unit_zero (S := S2000x1) poolOffs_zero, View.ld_unit_zero (S := S1x64) poolOffs_zero, View.ld_unit_zero (S := S256x64) poolOffs_zero]

theorem midCounts_eq :
    VS2_1.read (Elt F) (VS2_1.writes (Elt F) VS2_1.junk (kernelRun2_B c i arg1 harg1 arg2 harg2 arg3 harg3 arg4 harg4 arg5 harg5 arg6 harg6 arg7 harg7 arg8 harg8 arg9 harg9 hc0 hc1 x0 x1 x2 x3 x4 x5 xs0 xs1).2.2.1) = k2_pay1 (k2_pay7 x3 xs1) := by
  rw [View.read_writes_eq_canon _ _ _ (scover2_B_1 _ _ _ _ _ _ _ _ _ _ _ _ _ _ _ _ _ _ _ _ _ _ _ _ _ _ _ _ _ _)]
  unfold kernelRun2_B
  dsimp only
  try sl_unfold_words
  rw [View.canon_unit_zero (S := S256x1) poolOffs_zero]
  simp only [View.readAt_eq_ld, harg4.read_unread, harg9.read_unread, View.ld_unit_zero (S := S2000x1) poolOffs_zero, View.ld_unit_zero (S := S256x1) poolOffs_zero]

end Middle

section Last
variable (hc0 : ¬cond2_0 i) (hc1 : cond2_1 i) (x0 : Vec F S2000x64 .f32) (x1 : Vec F S2000x1 .f32) (x2 : Vec F S1x64 .f32) (x3 : Vec F S2000x1 .i32) (x4 : Vec F S64x10 .f32) (x5 : Vec F S1x10 .f32) (xs0 : Vec F S256x64 .f32) (xs1 : Vec F S256x1 .f32)
include hc0 hc1

theorem lastSums_eq :
    VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 x0 x1 x2 x3 x4 x5 xs0 xs1).2.1) = k2_pay6 x1 x0 x2 x3 xs0 := by
  rw [View.read_writes_eq_canon _ _ _ (scover2_C_0 _ _ _ _ _ _ _ _ _ _ _ _ _ _ _ _ _ _ _ _ _ _ _ _ _ _ _ _ _ _)]
  unfold kernelRun2_C
  dsimp only
  try sl_unfold_words
  rw [View.canon_unit_zero (S := S256x64) poolOffs_zero]
  simp only [View.readAt_eq_ld, harg1.read_unread, harg2.read_unread, harg3.read_unread, harg4.read_unread, harg8.read_unread, View.ld_unit_zero (S := S2000x64) poolOffs_zero, View.ld_unit_zero (S := S2000x1) poolOffs_zero, View.ld_unit_zero (S := S1x64) poolOffs_zero, View.ld_unit_zero (S := S256x64) poolOffs_zero]

theorem lastCounts_eq :
    VS2_1.read (Elt F) (VS2_1.writes (Elt F) VS2_1.junk (kernelRun2_C c i arg1 harg1 arg2 harg2 arg3 harg3 arg4 harg4 arg5 harg5 arg6 harg6 arg7 harg7 arg8 harg8 arg9 harg9 hc0 hc1 x0 x1 x2 x3 x4 x5 xs0 xs1).2.2.1) = k2_pay1 (k2_pay7 x3 xs1) := by
  rw [View.read_writes_eq_canon _ _ _ (scover2_C_1 _ _ _ _ _ _ _ _ _ _ _ _ _ _ _ _ _ _ _ _ _ _ _ _ _ _ _ _ _ _)]
  unfold kernelRun2_C
  dsimp only
  try sl_unfold_words
  rw [View.canon_unit_zero (S := S256x1) poolOffs_zero]
  simp only [View.readAt_eq_ld, harg4.read_unread, harg9.read_unread, View.ld_unit_zero (S := S2000x1) poolOffs_zero, View.ld_unit_zero (S := S256x1) poolOffs_zero]

theorem lastOut_eq :
    VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 x0 x1 x2 x3 x4 x5 xs0 xs1).1)
      = k2_pay2 (k2_pay6 x1 x0 x2 x3 xs0) (k2_pay1 (k2_pay7 x3 xs1)) x4 x5 := by
  rw [View.read_writes_eq_canon _ _ _ (cover2_C_6 _ _ _ _ _ _ _ _ _ _ _ _ _ _ _ _ _ _ _ _ _ _ _ _ _ _ _ _ _ _)]
  unfold kernelRun2_C
  dsimp only
  try sl_unfold_words
  rw [View.canon_unit_zero (S := S256x10) poolOffs_zero]
  simp only [View.readCov_unit_zero (S := S256x64) _ poolOffs_zero, View.readCov_unit_zero (S := S256x1) _ poolOffs_zero]
  simp only [View.readAt_eq_ld, harg1.read_unread, harg2.read_unread, harg3.read_unread, harg4.read_unread, harg5.read_unread, harg6.read_unread, harg8.read_unread, harg9.read_unread, View.ld_unit_zero (S := S2000x64) poolOffs_zero, View.ld_unit_zero (S := S2000x1) poolOffs_zero, View.ld_unit_zero (S := S1x64) poolOffs_zero, View.ld_unit_zero (S := S64x10) poolOffs_zero, View.ld_unit_zero (S := S1x10) poolOffs_zero, View.ld_unit_zero (S := S256x64) poolOffs_zero, View.ld_unit_zero (S := S256x1) poolOffs_zero]

end Last

end Pieces

section Array

variable (V : (c : Dev nD) → (b : Ref sig .tc) → Buf (Elt Ideal) ((c : Thread nD τ).loc b))

abbrev poolAgg (c : Dev nD) : S100000x64.Idx → EReal := V c main_v39
abbrev poolDinv (c : Dev nD) : S100000x1.Idx → EReal := V c main_v14
abbrev poolBias (c : Dev nD) : S1x64.Idx → EReal := V c main_v41
abbrev poolWord (c : Dev nD) : S100000x1.Idx → BitVec 32 := V c main_v40
abbrev poolWl (c : Dev nD) : S64x10.Idx → EReal := V c main_arg7
abbrev poolBl (c : Dev nD) : S1x10.Idx → EReal := V c main_v42

abbrev poolD (c : Dev nD) : Fin 100000 → EReal := fun i => poolDinv V c (ix2 i 0)
abbrev poolP (c : Dev nD) : Fin 100000 → Fin 64 → EReal := fun i j => poolAgg V c (ix2 i j)
abbrev poolB (c : Dev nD) : Fin 64 → EReal := fun j => poolBias V c (ix2 0 j)
abbrev poolG (c : Dev nD) : Fin 100000 → ℤ := fun n => (poolWord V c (ix2 n 0)).toInt

abbrev poolAct (c : Dev nD) : Fin 100000 → Fin 64 → EReal := tAct (poolD V c) (poolP V c) (poolB V c)

abbrev aggBlk (c : Dev nD) (t : Fin cfg2.N) : Vec Ideal S2000x64 .f32 := iblk2 V c 0 t
abbrev dinvBlk (c : Dev nD) (t : Fin cfg2.N) : Vec Ideal S2000x1 .f32 := iblk2 V c 1 t
abbrev biasBlk (c : Dev nD) (t : Fin cfg2.N) : Vec Ideal S1x64 .f32 := iblk2 V c 2 t
abbrev wordBlk (c : Dev nD) (t : Fin cfg2.N) : Vec Ideal S2000x1 .i32 := iblk2 V c 3 t
abbrev wlBlk (c : Dev nD) (t : Fin cfg2.N) : Vec Ideal S64x10 .f32 := iblk2 V c 4 t
abbrev blBlk (c : Dev nD) (t : Fin cfg2.N) : Vec Ideal S1x10 .f32 := iblk2 V c 5 t

abbrev sumsAt (c : Dev nD) (n : ℕ) (hn : n < cfg2.N) : Vec Ideal S256x64 .f32 := (outsAt2 V c n hn).2.1
abbrev cntsAt (c : Dev nD) (n : ℕ) (hn : n < cfg2.N) : Vec Ideal S256x1 .f32 := (outsAt2 V c n hn).2.2

def tileOf (t : Fin cfg2.N) : Fin 50 := ⟨t.val, lt_of_lt_of_eq t.isLt N_2⟩

theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem aggBlock_apply (c : Dev nD) (t : Fin cfg2.N) (r : Fin 2000) (k : Fin 64) :
    aggBlk V c t (ix2 r k) = poolAgg V c (ix2 (node (tileOf t) r) k) := by
  obtain ⟨e0, e1, -⟩ := blockIndex2 t
  unfold aggBlk iblk2
  rw [View.read_apply]
  show V c main_v39 _ = V c main_v39 _
  refine congrArg _ (Shape.idx_ext₂ ?_ ?_)
  · show win2_0.index t (0 : Fin 2) * 2000 + 1 * r.val = 2000 * t.val + r.val; rw [e0]; omega
  · show win2_0.index t (1 : Fin 2) * 64 + 1 * k.val = k.val; rw [e1]; omega

theorem dinvBlock2_apply (c : Dev nD) (t : Fin cfg2.N) (r : Fin 2000) :
    dinvBlk V c t (ix2 r (0 : Fin 1)) = poolDinv V c (ix2 (node (tileOf t) r) (0 : Fin 1)) := by
  obtain ⟨-, -, e0, e1, -⟩ := blockIndex2 t
  unfold dinvBlk iblk2
  rw [View.read_apply]
  show V c main_v14 _ = V c main_v14 _
  refine congrArg _ (Shape.idx_ext₂ ?_ ?_)
  · show win2_1.index t (0 : Fin 2) * 2000 + 1 * r.val = 2000 * t.val + r.val; rw [e0]; omega
  · show win2_1.index t (1 : Fin 2) * 1 + 1 * 0 = 0; rw [e1]

theorem biasBlock_apply (c : Dev nD) (t : Fin cfg2.N) (k : Fin 64) :
    biasBlk V c t (ix2 (0 : Fin 1) k) = poolBias V c (ix2 (0 : Fin 1) k) := by
  obtain ⟨-, -, -, -, e0, e1, -⟩ := blockIndex2 t
  unfold biasBlk iblk2
  rw [View.read_apply]
  show V c main_v41 _ = V c main_v41 _
  refine congrArg _ (Shape.idx_ext₂ ?_ ?_)
  · show win2_2.index t (0 : Fin 2) * 1 + 1 * 0 = 0; rw [e0]
  · show win2_2.index t (1 : Fin 2) * 64 + 1 * k.val = k.val; rw [e1]; omega

theorem wordBlock_apply (c : Dev nD) (t : Fin cfg2.N) (r : Fin 2000) :
    wordBlk V c t (ix2 r (0 : Fin 1)) = poolWord V c (ix2 (node (tileOf t) r) (0 : Fin 1)) := by
  obtain ⟨-, -, -, -, -, -, e0, e1, -⟩ := blockIndex2 t
  unfold wordBlk iblk2
  rw [View.read_apply]
  show V c main_v40 _ = V c main_v40 _
  refine congrArg _ (Shape.idx_ext₂ ?_ ?_)
  · show win2_3.index t (0 : Fin 2) * 2000 + 1 * r.val = 2000 * t.val + r.val; rw [e0]; omega
  · show win2_3.index t (1 : Fin 2) * 1 + 1 * 0 = 0; rw [e1]

theorem wlBlock_apply (c : Dev nD) (t : Fin cfg2.N) (k : Fin 64) (o : Fin 10) :
    wlBlk V c t (ix2 k o) = poolWl V c (ix2 k o) := by
  obtain ⟨-, -, -, -, -, -, -, -, e0, e1, -⟩ := blockIndex2 t
  unfold wlBlk iblk2
  rw [View.read_apply]
  show V c main_arg7 _ = V c main_arg7 _
  refine congrArg _ (Shape.idx_ext₂ ?_ ?_)
  · show win2_4.index t (0 : Fin 2) * 64 + 1 * k.val = k.val; rw [e0]; omega
  · show win2_4.index t (1 : Fin 2) * 10 + 1 * o.val = o.val; rw [e1]; omega

theorem blBlock_apply (c : Dev nD) (t : Fin cfg2.N) (o : Fin 10) :
    blBlk V c t (ix2 (0 : Fin 1) o) = poolBl V c (ix2 (0 : Fin 1) o) := by
  obtain ⟨-, -, -, -, -, -, -, -, -, -, e0, e1, -⟩ := blockIndex2 t
  unfold blBlk iblk2
  rw [View.read_apply]
  show V c main_v42 _ = V c main_v42 _
  refine congrArg _ (Shape.idx_ext₂ ?_ ?_)
  · show win2_5.index t (0 : Fin 2) * 1 + 1 * 0 = 0; rw [e0]
  · show win2_5.index t (1 : Fin 2) * 10 + 1 * o.val = o.val; rw [e1]; omega

theorem outBlock2_emb (t : Fin cfg2.N) (g : Fin 256) (o : Fin 10) :
    (((cfg2.win 6).blk t).view.emb (ix2 g o) : S256x10.Idx) = ix2 g o := by
  obtain ⟨-, -, -, -, -, -, -, -, -, -, -, -, e0, e1⟩ := blockIndex2 t
  refine Shape.idx_ext₂ ?_ ?_
  · show win2_6.index t (0 : Fin 2) * 256 + 1 * g.val = g.val; rw [e0]; omega
  · show win2_6.index t (1 : Fin 2) * 10 + 1 * o.val = o.val; rw [e1]; omega

theorem tileSum_eq (c : Dev nD) (t : Fin cfg2.N) (g : Fin 256) (k : Fin 64) :
    (∑ r : Fin 2000, (if (wordBlk V c t (ix2 r 0)).toInt = (g.val : ℤ) then (1 : EReal) else 0)
        * max (dinvBlk V c t (ix2 r 0) * aggBlk V c t (ix2 r k) + biasBlk V c t (ix2 0 k)) 0)
      = tTileSum (poolG V c) (poolAct V c) g k t.val := by
  have ht : t.val < 50 := lt_of_lt_of_eq t.isLt N_2
  unfold tTileSum
  rw [dif_pos ht]
  refine Finset.sum_congr rfl fun r _ => ?_
  rw [wordBlock_apply, dinvBlock2_apply, aggBlock_apply, biasBlock_apply]
  rfl

theorem tileCnt_eq (c : Dev nD) (t : Fin cfg2.N) (g : Fin 256) :
    (∑ r : Fin 2000, (if (wordBlk V c t (ix2 r 0)).toInt = (g.val : ℤ) then (1 : EReal) else 0) * 1)
      = tTileCnt (poolG V c) g t.val := by
  have ht : t.val < 50 := lt_of_lt_of_eq t.isLt N_2
  unfold tTileCnt
  rw [dif_pos ht]
  refine Finset.sum_congr rfl fun r _ => ?_
  rw [wordBlock_apply]
  rfl

theorem sums_first (c : Dev nD) (t : Fin cfg2.N) (h0 : t.val % 50 = 0) (h1 : ¬t.val % 50 = 49) :
    sumsAt V c t.val t.isLt
      = k2_pay6 (F := Ideal) (dinvBlk V c t) (aggBlk V c t) (biasBlk V c t) (wordBlk V c t) (k2_pay3 (F := Ideal)) := by
  unfold sumsAt
  rw [outsAt2_A V c t h0 h1]
  dsimp only [atPt2, outs2_A, outs2_B, outs2_C, reads2]
  exact firstSums_eq (F := Ideal) c _ _ _ _ _ _ _ _ _ _ _ _ _ _ _ _ _ _ _ _ _ (aggBlk V c t) (dinvBlk V c t) (biasBlk V c t) (wordBlk V c t) (wlBlk V c t) (blBlk V c t)

theorem cnts_first (c : Dev nD) (t : Fin cfg2.N) (h0 : t.val % 50 = 0) (h1 : ¬t.val % 50 = 49) :
    cntsAt V c t.val t.isLt = k2_pay1 (F := Ideal) (k2_pay7 (F := Ideal) (wordBlk V c t) (k2_pay4 (F := Ideal))) := by
  unfold cntsAt
  rw [outsAt2_A V c t h0 h1]
  dsimp only [atPt2, outs2_A, outs2_B, outs2_C, reads2]
  exact firstCounts_eq (F := Ideal) c _ _ _ _ _ _ _ _ _ _ _ _ _ _ _ _ _ _ _ _ _ (aggBlk V c t) (dinvBlk V c t) (biasBlk V c t) (wordBlk V c t) (wlBlk V c t) (blBlk V c t)

theorem sums_later (c : Dev nD) (t : Fin cfg2.N) (h0 : ¬t.val % 50 = 0) (hp : t.val - 1 < cfg2.N) :
    sumsAt V c t.val t.isLt
      = k2_pay6 (F := Ideal) (dinvBlk V c t) (aggBlk V c t) (biasBlk V c t) (wordBlk V c t) (sumsAt V c (t.val - 1) hp) := by
  unfold sumsAt
  by_cases h1 : t.val % 50 = 49
  · rw [outsAt2_C V c t h0 h1]
    dsimp only [atPt2, outs2_A, outs2_B, outs2_C, reads2]
    exact lastSums_eq (F := Ideal) c _ _ _ _ _ _ _ _ _ _ _ _ _ _ _ _ _ _ _ _ _ (aggBlk V c t) (dinvBlk V c t) (biasBlk V c t) (wordBlk V c t) (wlBlk V c t) (blBlk V c t) (outsAt2 V c (t.val - 1) hp).2.1 (outsAt2 V c (t.val - 1) hp).2.2
  · rw [outsAt2_B V c t h0 h1]
    dsimp only [atPt2, outs2_A, outs2_B, outs2_C, reads2]
    exact midSums_eq (F := Ideal) c _ _ _ _ _ _ _ _ _ _ _ _ _ _ _ _ _ _ _ _ _ (aggBlk V c t) (dinvBlk V c t) (biasBlk V c t) (wordBlk V c t) (wlBlk V c t) (blBlk V c t) (outsAt2 V c (t.val - 1) hp).2.1 (outsAt2 V c (t.val - 1) hp).2.2

theorem cnts_later (c : Dev nD) (t : Fin cfg2.N) (h0 : ¬t.val % 50 = 0) (hp : t.val - 1 < cfg2.N) :
    cntsAt V c t.val t.isLt = k2_pay1 (F := Ideal) (k2_pay7 (F := Ideal) (wordBlk V c t) (cntsAt V c (t.val - 1) hp)) := by
  unfold cntsAt
  by_cases h1 : t.val % 50 = 49
  · rw [outsAt2_C V c t h0 h1]
    dsimp only [atPt2, outs2_A, outs2_B, outs2_C, reads2]
    exact lastCounts_eq (F := Ideal) c _ _ _ _ _ _ _ _ _ _ _ _ _ _ _ _ _ _ _ _ _ (aggBlk V c t) (dinvBlk V c t) (biasBlk V c t) (wordBlk V c t) (wlBlk V c t) (blBlk V c t) (outsAt2 V c (t.val - 1) hp).2.1 (outsAt2 V c (t.val - 1) hp).2.2
  · rw [outsAt2_B V c t h0 h1]
    dsimp only [atPt2, outs2_A, outs2_B, outs2_C, reads2]
    exact midCounts_eq (F := Ideal) c _ _ _ _ _ _ _ _ _ _ _ _ _ _ _ _ _ _ _ _ _ (aggBlk V c t) (dinvBlk V c t) (biasBlk V c t) (wordBlk V c t) (wlBlk V c t) (blBlk V c t) (outsAt2 V c (t.val - 1) hp).2.1 (outsAt2 V c (t.val - 1) hp).2.2

theorem out_last (c : Dev nD) (t : Fin cfg2.N) (h0 : ¬t.val % 50 = 0) (h1 : t.val % 50 = 49) (hp : t.val - 1 < cfg2.N) :
    (outsAt2 V c t.val t.isLt).1
      = k2_pay2 (F := Ideal) (k2_pay6 (F := Ideal) (dinvBlk V c t) (aggBlk V c t) (biasBlk V c t) (wordBlk V c t) (sumsAt V c (t.val - 1) hp))
          (k2_pay1 (F := Ideal) (k2_pay7 (F := Ideal) (wordBlk V c t) (cntsAt V c (t.val - 1) hp))) (wlBlk V c t) (blBlk V c t) := by
  rw [outsAt2_C V c t h0 h1]
  dsimp only [atPt2, outs2_A, outs2_B, outs2_C, reads2]
  exact lastOut_eq (F := Ideal) c _ _ _ _ _ _ _ _ _ _ _ _ _ _ _ _ _ _ _ _ _ (aggBlk V c t) (dinvBlk V c t) (biasBlk V c t) (wordBlk V c t) (wlBlk V c t) (blBlk V c t) (outsAt2 V c (t.val - 1) hp).2.1 (outsAt2 V c (t.val - 1) hp).2.2

theorem runTotal_first (tile : ℕ → EReal) (n : ℕ) (h : n = 0) : runTotal tile n = 0 + tile n := by
  subst h; rfl

theorem runTotal_later (tile : ℕ → EReal) (n : ℕ) (h : n ≠ 0) : runTotal tile n = runTotal tile (n - 1) + tile n := by
  cases n with
  | zero => exact absurd rfl h
  | succ m => rfl

def Carried (c : Dev nD) (t : Fin cfg2.N) : Prop :=
  (∀ (g : Fin 256) (k : Fin 64), sumsAt V c t.val t.isLt (ix2 g k) = runTotal (tTileSum (poolG V c) (poolAct V c) g k) t.val)
  ∧ (∀ g : Fin 256, cntsAt V c t.val t.isLt (ix2 g (0 : Fin 1)) = runTotal (tTileCnt (poolG V c) g) t.val)

theorem carried (c : Dev nD) : ∀ (n : ℕ) (t : Fin cfg2.N), t.val = n → Carried V c t := by
  intro n
  induction n with
  | zero =>
    intro t ht
    have h0 : t.val % 50 = 0 := by omega
    have h1 : ¬t.val % 50 = 49 := by omega
    refine ⟨fun g k => ?_, fun g => ?_⟩
    · refine (congrFun (sums_first V c t h0 h1) (ix2 g k)).trans ?_
      refine (sums_apply (dinvBlk V c t) (aggBlk V c t) (biasBlk V c t) (wordBlk V c t) (k2_pay3 (F := Ideal)) g k).trans ?_
      exact (congrArg₂ (fun a b : EReal => a + b) (zeros64_apply g k) (tileSum_eq V c t g k)).trans
        (runTotal_first (tTileSum (poolG V c) (poolAct V c) g k) t.val ht).symm
    · refine (congrFun (cnts_first V c t h0 h1) (ix2 g (0 : Fin 1))).trans ?_
      refine (cnt_apply (wordBlk V c t) (k2_pay4 (F := Ideal)) g).trans ?_
      exact (congrArg₂ (fun a b : EReal => a + b) (zeros1_apply g) (tileCnt_eq V c t g)).trans
        (runTotal_first (tTileCnt (poolG V c) g) t.val ht).symm
  | succ n ih =>
    intro t ht
    have hN : t.val < 50 := lt_of_lt_of_eq t.isLt N_2
    have h0 : ¬t.val % 50 = 0 := by omega
    have hne : t.val ≠ 0 := by omega
    have hp : t.val - 1 < cfg2.N := Nat.lt_of_le_of_lt (Nat.sub_le _ _) t.isLt
    obtain ⟨ihS, ihC⟩ := ih ⟨t.val - 1, hp⟩ (by show t.val - 1 = n; omega)
    refine ⟨fun g k => ?_, fun g => ?_⟩
    · refine (congrFun (sums_later V c t h0 hp) (ix2 g k)).trans ?_
      refine (sums_apply (dinvBlk V c t) (aggBlk V c t) (biasBlk V c t) (wordBlk V c t) (sumsAt V c (t.val - 1) hp) g k).trans ?_
      exact (congrArg₂ (fun a b : EReal => a + b) (ihS g k) (tileSum_eq V c t g k)).trans
        (runTotal_later (tTileSum (poolG V c) (poolAct V c) g k) t.val hne).symm
    · refine (congrFun (cnts_later V c t h0 hp) (ix2 g (0 : Fin 1))).trans ?_
      refine (cnt_apply (wordBlk V c t) (cntsAt V c (t.val - 1) hp) g).trans ?_
      exact (congrArg₂ (fun a b : EReal => a + b) (ihC g) (tileCnt_eq V c t g)).trans
        (runTotal_later (tTileCnt (poolG V c) g) t.val hne).symm

def pooled (c : Dev nD) : S256x10.Idx → EReal := fun idx =>
  readOut (fun k o => poolWl V c (ix2 k o)) (fun o => poolBl V c (ix2 0 o))
    (fun g k => runTotal (tTileSum (poolG V c) (poolAct V c) g k) 49)
    (fun g => runTotal (tTileCnt (poolG V c) g) 49) (idx 0) (idx 1)

theorem flushed2_eq (c : Dev nD) (t : Fin cfg2.N) (hf : (cfg2.win 6).flush t = true) :
    (dat2 (F := Ideal) V c).flushed 6 t = ((cfg2.win 6).blk t).view.read (Elt Ideal) (pooled V c) := by
  have h1 : t.val % 50 = 49 := (flush2_6 t).mp hf
  have hN : t.val < 50 := lt_of_lt_of_eq t.isLt N_2
  have h0 : ¬t.val % 50 = 0 := by omega
  have h49 : t.val = 49 := by omega
  have hne : t.val ≠ 0 := by omega
  have hp : t.val - 1 < cfg2.N := Nat.lt_of_le_of_lt (Nat.sub_le _ _) t.isLt
  obtain ⟨ihS, ihC⟩ := carried V c (t.val - 1) ⟨t.val - 1, hp⟩ rfl
  show (cfg2.win 6).cut (grid2.coords t) ((dat2 (F := Ideal) V c).after 6 t) = _
  rw [after2_6, out_last V c t h0 h1 hp]
  funext j
  obtain ⟨g, o, rfl⟩ : ∃ (g : Fin 256) (o : Fin 10), j = ix2 g o := ⟨j 0, j 1, eq_ix2 j⟩
  show (k2_pay2 (F := Ideal) (k2_pay6 (F := Ideal) (dinvBlk V c t) (aggBlk V c t) (biasBlk V c t) (wordBlk V c t) (sumsAt V c (t.val - 1) hp))
      (k2_pay1 (F := Ideal) (k2_pay7 (F := Ideal) (wordBlk V c t) (cntsAt V c (t.val - 1) hp))) (wlBlk V c t) (blBlk V c t) : S256x10.Idx → EReal) (ix2 g o)
    = pooled V c (((cfg2.win 6).blk t).view.emb (ix2 g o))
  rw [outBlock2_emb]
  refine (out_apply (k2_pay6 (F := Ideal) (dinvBlk V c t) (aggBlk V c t) (biasBlk V c t) (wordBlk V c t) (sumsAt V c (t.val - 1) hp))
    (k2_pay1 (F := Ideal) (k2_pay7 (F := Ideal) (wordBlk V c t) (cntsAt V c (t.val - 1) hp))) (wlBlk V c t) (blBlk V c t) g o).trans ?_
  have eS : ∀ k : Fin 64, k2_pay6 (F := Ideal) (dinvBlk V c t) (aggBlk V c t) (biasBlk V c t) (wordBlk V c t) (sumsAt V c (t.val - 1) hp) (ix2 g k)
      = runTotal (tTileSum (poolG V c) (poolAct V c) g k) 49 := fun k =>
    (sums_apply (dinvBlk V c t) (aggBlk V c t) (biasBlk V c t) (wordBlk V c t) (sumsAt V c (t.val - 1) hp) g k).trans
      ((congrArg₂ (fun a b : EReal => a + b) (ihS g k) (tileSum_eq V c t g k)).trans
        ((runTotal_later (tTileSum (poolG V c) (poolAct V c) g k) t.val hne).symm.trans
          (congrArg (runTotal (tTileSum (poolG V c) (poolAct V c) g k)) h49)))
  have eC : k2_pay1 (F := Ideal) (k2_pay7 (F := Ideal) (wordBlk V c t) (cntsAt V c (t.val - 1) hp)) (ix2 g (0 : Fin 1))
      = runTotal (tTileCnt (poolG V c) g) 49 :=
    (cnt_apply (wordBlk V c t) (cntsAt V c (t.val - 1) hp) g).trans
      ((congrArg₂ (fun a b : EReal => a + b) (ihC g) (tileCnt_eq V c t g)).trans
        ((runTotal_later (tTileCnt (poolG V c) g) t.val hne).symm.trans
          (congrArg (runTotal (tTileCnt (poolG V c) g)) h49)))
  show _ = (∑ k : Fin 64, Ideal.div (runTotal (tTileSum (poolG V c) (poolAct V c) g k) 49)
      (max (runTotal (tTileCnt (poolG V c) g) 49) 1) * poolWl V c (ix2 k o)) + poolBl V c (ix2 (0 : Fin 1) o)
  refine congrArg₂ (fun a b : EReal => a + b) (Finset.sum_congr rfl fun k _ => ?_) (blBlock_apply V c t o)
  exact congrArg₂ (fun a b : EReal => a * b)
    (congrArg₂ Ideal.div (eS k) (congrArg (fun x : EReal => max x 1) eC)) (wlBlock_apply V c t k o)

theorem mem_outBlock2 (t : Fin cfg2.N) (i : S256x10.Idx) :
    i ∈ ((cfg2.win 6).blk t).view.set ↔ ∀ a : Fin 2, win2_6.index t a * S256x10.size a ≤ (i a).val ∧ (i a).val < win2_6.index t a * S256x10.size a + S256x10.size a := by
  show i ∈ ((View.whole main_v43).slice (win2_6.rect t)).set ↔ _
  rw [View.set_slice_whole, Rect.mem_set_unit]
  exact Iff.rfl

theorem pooled_cover (i : S256x10.Idx) :
    ∃ t : Fin cfg2.N, (cfg2.win 6).flush t = true ∧ i ∈ ((cfg2.win 6).blk t).view.set := by
  have hi0 : (i 0).val < 256 := (i 0).isLt
  have hi1 : (i 1).val < 10 := (i 1).isLt
  have hN : cfg2.N = 50 := N_2
  let t : Fin cfg2.N := ⟨49, by rw [hN]; omega⟩
  have ht : t.val = 49 := rfl
  obtain ⟨-, -, -, -, -, -, -, -, -, -, -, -, e0, e1⟩ := blockIndex2 t
  refine ⟨t, (flush2_6 t).mpr (by rw [ht]), ?_⟩
  rw [mem_outBlock2]
  intro a
  match a with
  | ⟨0, _⟩ => show win2_6.index t (0 : Fin 2) * 256 ≤ (i 0).val ∧ (i 0).val < win2_6.index t (0 : Fin 2) * 256 + 256; rw [e0]; omega
  | ⟨1, _⟩ => show win2_6.index t (1 : Fin 2) * 10 ≤ (i 1).val ∧ (i 1).val < win2_6.index t (1 : Fin 2) * 10 + 10; rw [e1]; omega

theorem final2 (c : Dev nD) : ((dat2 (F := Ideal) V c).arrAt 6 cfg2.N : S256x10.Idx → EReal) = fun idx =>
    readOut (fun k o => (V c main_arg7 : S64x10.Idx → EReal) (ix2 k o)) (fun o => (V c main_v42 : S1x10.Idx → EReal) (ix2 0 o))
      (fun g k => runTotal (tTileSum (fun n => ((V c main_v40 : S100000x1.Idx → BitVec 32) (ix2 n 0)).toInt)
        (tAct (fun i => (V c main_v14 : S100000x1.Idx → EReal) (ix2 i 0)) (fun i j => (V c main_v39 : S100000x64.Idx → EReal) (ix2 i j))
          (fun j => (V c main_v41 : S1x64.Idx → EReal) (ix2 0 j))) g k) 49)
      (fun g => runTotal (tTileCnt (fun n => ((V c main_v40 : S100000x1.Idx → BitVec 32) (ix2 n 0)).toInt) g) 49) (idx 0) (idx 1) :=
  (dat2 (F := Ideal) V c).arrAt_eq_of_cover 6 (pooled V c) (fun t hf => flushed2_eq V c t hf) pooled_cover

end Array

end Cert.KernelIdeal.Val

end
-- ==== Proof.KernelHost.lean ====
import proofs.«430635_j91018946937353_3_alg».proof.Proof.Gen.KernelIdeal.Launch
import Idealize.ShloMosaic.Lib.StableHlo.Run
import Idealize.ShloMosaic.Lib.IdealHost
import Idealize.ShloMosaic.Lib.ValueLayout
import proofs.«430635_j91018946937353_3_alg».proof.Proof.Graph
import proofs.«430635_j91018946937353_3_alg».proof.Proof.GraphFacts
import proofs.«430635_j91018946937353_3_alg».proof.Proof.LibRowGatherScatter
import proofs.«430635_j91018946937353_3_alg».proof.Proof.HostRead

noncomputable section

namespace Cert.KernelIdeal.Val

open Idealize.ShloMosaic Idealize.ShloMosaic.ValueIdx Idealize.SL.Sem
open Cert.KernelIdeal Cert.KernelIdeal.Gen Cert.GcnPool

variable (Vin : Valuation τ sig (Elt Ideal))

theorem host0_src (e : Fin 1300000) :
    (StableHlo.after (hostOps0 (F := Ideal)) Vin (Proc.devRef .tc main_v5) : S1300000.Idx → BitVec 32) (ix1 e)
      = endWord (Vin (Proc.devRef .tc main_arg1)) 0 e := by
  after_results
  exact endWord_read_of _ 0 ![0, 0] rfl rfl _ _ _ e

theorem host0_dst (e : Fin 1300000) :
    (StableHlo.after (hostOps0 (F := Ideal)) Vin (Proc.devRef .tc main_v6) : S1300000.Idx → BitVec 32) (ix1 e)
      = endWord (Vin (Proc.devRef .tc main_arg1)) 1 e := by
  after_results
  exact endWord_read_of _ 1 ![1, 0] rfl rfl _ _ _ e

theorem host0_dinv (i : Fin 100000) :
    (StableHlo.after (hostOps0 (F := Ideal)) Vin (Proc.devRef .tc main_v14) : S100000x1.Idx → EReal) (ix2 i 0)
      = dOf (Vin (Proc.devRef .tc main_arg1)) i := by
  after_results
  refine (colCast_read shapeCasts_S100000_S100000x1 _ i).trans ?_
  exact dOf_read _ scatter_S100000_S1300000x1_S1300000_n_0_0_1 rfl rfl rfl rfl bcast_S_S100000 bcast_S_S100000 bcast_S_S1300000 _
    (fun e => congrArg BitVec.toInt ((col_read bcast_S1300000_S1300000x1_0 _ e).trans (endWord_read_of _ 1 ![1, 0] rfl rfl _ _ _ e))) i

theorem collect_read (tbl : S100000x64.Idx → EReal) (ws wd : IVec S1300000 32) (i : Fin 100000) (k : Fin 64) :
    (Host.scatterAdd (F := Ideal) scatter_S100000x64_S1300000x1_S1300000x64_1_0_0_1
        (broadcastInDim S100000x64 ![] bcast_S_S100000x64 (constant (F := Ideal) S_ .f32 0x00000000#32))
        (broadcastInDim S1300000x1 ![0] bcast_S1300000_S1300000x1_0 wd)
        (extf (F := Ideal) .f32
          (Host.gather gather_S100000x64_S1300000x1_S1300000x64_1_0_n_n_0_1_164 (tbl : FVec Ideal S100000x64 .bf16)
            (broadcastInDim S1300000x1 ![0] bcast_S1300000_S1300000x1_0
              (select (cmpi .slt ws (broadcastInDim S1300000 ![] bcast_S_S1300000 (constantI S_ 32 0#32)))
                (addi ws (broadcastInDim S1300000 ![] bcast_S_S1300000 (constantI S_ 32 100000#32))) ws)))
          bitsLt_bf16_f32) : S100000x64.Idx → EReal) (ix2 i k)
      = tCollect (fun e => rowOf (ws (ix1 e))) (fun e => (wd (ix1 e)).toInt) (fun r q => tbl (ix2 r q)) i k := by
  rw [Cert.Gcn.scatterAdd_rows scatter_S100000x64_S1300000x1_S1300000x64_1_0_0_1 rfl rfl rfl rfl,
    broadcastInDim_scalar_apply, constant_apply, Ideal.ofBits_zero_f32, zero_add]
  unfold tCollect segSum
  refine Finset.sum_congr (Finset.filter_congr fun e _ => ?_) fun e _ => ?_
  · rw [col_read]
  · rw [extf_apply, Cert.Gcn.gather_rows gather_S100000x64_S1300000x1_S1300000x64_1_0_n_n_0_1_164 rfl rfl rfl rfl rfl _ _ e k (by decide)]
    refine congrArg (fun r : Fin 100000 => tbl (ix2 r k)) (Fin.ext ?_)
    show min _ (100000 - 1) = min (wrap (ws (ix1 e))).toInt.toNat 99999
    rw [wrapCol_read]

theorem host1_collect (i : Fin 100000) (k : Fin 64) :
    (StableHlo.after (hostOps1 (F := Ideal)) Vin (Proc.devRef .tc main_v26) : S100000x64.Idx → EReal) (ix2 i k)
      = tCollect (fun e => rowOf ((Vin (Proc.devRef .tc main_v5) : S1300000.Idx → BitVec 32) (ix1 e)))
          (fun e => ((Vin (Proc.devRef .tc main_v6) : S1300000.Idx → BitVec 32) (ix1 e)).toInt)
          (fun r q => (Vin (Proc.devRef .tc main_v15) : S100000x64.Idx → EReal) (ix2 r q)) i k := by
  after_results
  exact collect_read _ _ _ i k

theorem host1_bias (j : Fin 64) :
    (StableHlo.after (hostOps1 (F := Ideal)) Vin (Proc.devRef .tc main_v27) : S1x64.Idx → EReal) (ix2 0 j)
      = (Vin (Proc.devRef .tc main_arg4) : S64.Idx → EReal) (ix1 j) := by
  after_results
  exact shapeCast_a_1a_apply _ shapeCasts_S64_S1x64 0 j

theorem host2_collect (i : Fin 100000) (k : Fin 64) :
    (StableHlo.after (hostOps2 (F := Ideal)) Vin (Proc.devRef .tc main_v39) : S100000x64.Idx → EReal) (ix2 i k)
      = tCollect (fun e => rowOf ((Vin (Proc.devRef .tc main_v5) : S1300000.Idx → BitVec 32) (ix1 e)))
          (fun e => ((Vin (Proc.devRef .tc main_v6) : S1300000.Idx → BitVec 32) (ix1 e)).toInt)
          (fun r q => (Vin (Proc.devRef .tc main_v28) : S100000x64.Idx → EReal) (ix2 r q)) i k := by
  after_results
  exact collect_read _ _ _ i k

theorem host2_graph (n : Fin 100000) :
    (StableHlo.after (hostOps2 (F := Ideal)) Vin (Proc.devRef .tc main_v40) : S100000x1.Idx → BitVec 32) (ix2 n 0)
      = (Vin (Proc.devRef .tc main_arg2) : S100000.Idx → BitVec 32) (ix1 n) := by
  after_results
  exact colCast_read shapeCasts_S100000_S100000x1 _ n

theorem host2_bias (j : Fin 64) :
    (StableHlo.after (hostOps2 (F := Ideal)) Vin (Proc.devRef .tc main_v41) : S1x64.Idx → EReal) (ix2 0 j)
      = (Vin (Proc.devRef .tc main_arg6) : S64.Idx → EReal) (ix1 j) := by
  after_results
  exact shapeCast_a_1a_apply _ shapeCasts_S64_S1x64 0 j

theorem host2_outBias (o : Fin 10) :
    (StableHlo.after (hostOps2 (F := Ideal)) Vin (Proc.devRef .tc main_v42) : S1x10.Idx → EReal) (ix2 0 o)
      = (Vin (Proc.devRef .tc main_arg8) : S10.Idx → EReal) (ix1 o) := by
  after_results
  exact shapeCast_a_1a_apply _ shapeCasts_S10_S1x10 0 o

end Cert.KernelIdeal.Val

end
-- ==== Proof.KernelValue.lean ====
import proofs.«430635_j91018946937353_3_alg».proof.Proof.KI.Run
import proofs.«430635_j91018946937353_3_alg».proof.Proof.Val0
import proofs.«430635_j91018946937353_3_alg».proof.Proof.Val1
import proofs.«430635_j91018946937353_3_alg».proof.Proof.Val2
import proofs.«430635_j91018946937353_3_alg».proof.Proof.KernelHost

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Cert.GcnPool Idealize.ShloMosaic.ValueIdx

variable (m : (ℓ : Loc nD τ sig) → Buf (Elt Ideal) ℓ) (ρ : Dev nD → PrngReg) (c : Dev nD)
abbrev ei := m ((c : Thread nD τ).loc main_arg1)

abbrev xIn (i : Fin 100000) (j : Fin 64) : EReal := (m ((c : Thread nD τ).loc main_arg0) : S100000x64.Idx → EReal) (ix2 i j)

abbrev w1In (j k : Fin 64) : EReal := (m ((c : Thread nD τ).loc main_arg3) : S64x64.Idx → EReal) (ix2 j k)

abbrev b1In (j : Fin 64) : EReal := (m ((c : Thread nD τ).loc main_arg4) : S64.Idx → EReal) (ix1 j)

abbrev w2In (j k : Fin 64) : EReal := (m ((c : Thread nD τ).loc main_arg5) : S64x64.Idx → EReal) (ix2 j k)

theorem feat_V1 : V1 m ρ c main_arg0 = m ((c : Thread nD τ).loc main_arg0) := W1_of m ρ c main_arg0 (by decide)

theorem weight1_V1 : V1 m ρ c main_arg3 = m ((c : Thread nD τ).loc main_arg3) := W1_of m ρ c main_arg3 (by decide)

theorem bias1_W2 : W2 m ρ c (Proc.devRef .tc main_arg4) = m ((c : Thread nD τ).loc main_arg4) :=
  (W2_of_ne m ρ c main_arg4 (by decide)).trans (W1_of m ρ c main_arg4 (by decide))

theorem weight2_V3 : V3 m ρ c main_arg5 = m ((c : Thread nD τ).loc main_arg5) :=
  (W3_of m ρ c main_arg5 (by decide)).trans ((W2_of_ne m ρ c main_arg5 (by decide)).trans (W1_of m ρ c main_arg5 (by decide)))

theorem graph_W4 : W4 m ρ c (Proc.devRef .tc main_arg2) = m ((c : Thread nD τ).loc main_arg2) :=
  (W4_of_ne m ρ c main_arg2 (by decide)).trans ((W3_of m ρ c main_arg2 (by decide)).trans
    ((W2_of_ne m ρ c main_arg2 (by decide)).trans (W1_of m ρ c main_arg2 (by decide))))

theorem bias2_W4 : W4 m ρ c (Proc.devRef .tc main_arg6) = m ((c : Thread nD τ).loc main_arg6) :=
  (W4_of_ne m ρ c main_arg6 (by decide)).trans ((W3_of m ρ c main_arg6 (by decide)).trans
    ((W2_of_ne m ρ c main_arg6 (by decide)).trans (W1_of m ρ c main_arg6 (by decide))))

theorem outBias_W4 : W4 m ρ c (Proc.devRef .tc main_arg8) = m ((c : Thread nD τ).loc main_arg8) :=
  (W4_of_ne m ρ c main_arg8 (by decide)).trans ((W3_of m ρ c main_arg8 (by decide)).trans
    ((W2_of_ne m ρ c main_arg8 (by decide)).trans (W1_of m ρ c main_arg8 (by decide))))

theorem outWeight_V5 : V5 m ρ c main_arg7 = m ((c : Thread nD τ).loc main_arg7) :=
  (W5_of m ρ c main_arg7 (by decide)).trans ((W4_of_ne m ρ c main_arg7 (by decide)).trans ((W3_of m ρ c main_arg7 (by decide)).trans
    ((W2_of_ne m ρ c main_arg7 (by decide)).trans (W1_of m ρ c main_arg7 (by decide)))))

theorem srcCol_W2 : W2 m ρ c (Proc.devRef .tc main_v5) = W1 m ρ c (Proc.devRef .tc main_v5) := W2_of_ne m ρ c main_v5 (by decide)

theorem srcCol_W4 : W4 m ρ c (Proc.devRef .tc main_v5) = W1 m ρ c (Proc.devRef .tc main_v5) :=
  (W4_of_ne m ρ c main_v5 (by decide)).trans ((W3_of m ρ c main_v5 (by decide)).trans (srcCol_W2 m ρ c))

theorem dstCol_W2 : W2 m ρ c (Proc.devRef .tc main_v6) = W1 m ρ c (Proc.devRef .tc main_v6) := W2_of_ne m ρ c main_v6 (by decide)

theorem dstCol_W4 : W4 m ρ c (Proc.devRef .tc main_v6) = W1 m ρ c (Proc.devRef .tc main_v6) :=
  (W4_of_ne m ρ c main_v6 (by decide)).trans ((W3_of m ρ c main_v6 (by decide)).trans (dstCol_W2 m ρ c))

theorem dinv_V3 : V3 m ρ c main_v14 = V1 m ρ c main_v14 :=
  (W3_of m ρ c main_v14 (by decide)).trans (W2_in m ρ c 2 rfl)

theorem dinv_V5 : V5 m ρ c main_v14 = V1 m ρ c main_v14 :=
  (W5_of m ρ c main_v14 (by decide)).trans ((W4_in m ρ c 1 rfl).trans (dinv_V3 m ρ c))

theorem srcRow_W1 : (fun e : Fin 1300000 => rowOf ((W1 m ρ c (Proc.devRef .tc main_v5) : S1300000.Idx → BitVec 32) (ix1 e)))
    = srcOf (ei m c) :=
  funext fun e => congrArg rowOf (host0_src (W0 m ρ c) e)

theorem dstInt_W1 : (fun e : Fin 1300000 => ((W1 m ρ c (Proc.devRef .tc main_v6) : S1300000.Idx → BitVec 32) (ix1 e)).toInt)
    = dstOf (ei m c) :=
  funext fun e => congrArg BitVec.toInt (host0_dst (W0 m ρ c) e)

theorem dinv_V1 : (fun i : Fin 100000 => (V1 m ρ c main_v14 : S100000x1.Idx → EReal) (ix2 i 0))
    = dOf (ei m c) :=
  funext fun i => host0_dinv (W0 m ρ c) i

theorem table1 : (fun r q => (W2 m ρ c (Proc.devRef .tc main_v15) : S100000x64.Idx → EReal) (ix2 r q))
    = tScaledLin (dOf (ei m c)) (xIn m c) (w1In m c) := by
  funext r q
  rw [show W2 m ρ c (Proc.devRef .tc main_v15) = (dat0 (V1 m ρ) c).arrAt 3 cfg0.N from W2_arr m ρ c 3, final0 (V1 m ρ) c,
    dinv_V1, feat_V1, weight1_V1]
  rfl

theorem collected1 : (fun i k => (V3 m ρ c main_v26 : S100000x64.Idx → EReal) (ix2 i k))
    = tCollect (srcOf (ei m c)) (dstOf (ei m c))
        (tScaledLin (dOf (ei m c)) (xIn m c) (w1In m c)) := by
  funext i k
  refine (host1_collect (W2 m ρ c) i k).trans ?_
  rw [srcCol_W2, dstCol_W2, srcRow_W1, dstInt_W1, table1]

theorem biasRow1 : (fun j : Fin 64 => (V3 m ρ c main_v27 : S1x64.Idx → EReal) (ix2 0 j))
    = fun j => (m ((c : Thread nD τ).loc main_arg4) : S64.Idx → EReal) (ix1 j) := by
  funext j
  refine (host1_bias (W2 m ρ c) j).trans ?_
  rw [bias1_W2]

theorem table2 : (fun r q => (W4 m ρ c (Proc.devRef .tc main_v28) : S100000x64.Idx → EReal) (ix2 r q))
    = tScaledLin (dOf (ei m c))
        (tAct1 (srcOf (ei m c)) (dstOf (ei m c))
          (dOf (ei m c)) (xIn m c) (w1In m c) (b1In m c)) (w2In m c) := by
  funext r q
  rw [show W4 m ρ c (Proc.devRef .tc main_v28) = (dat1 (V3 m ρ) c).arrAt 4 cfg1.N from W4_arr m ρ c 4, final1 (V3 m ρ) c,
    dinv_V3, dinv_V1, collected1, biasRow1, weight2_V3]
  rfl

theorem collected2 : (fun i k => (V5 m ρ c main_v39 : S100000x64.Idx → EReal) (ix2 i k))
    = tCollect (srcOf (ei m c)) (dstOf (ei m c))
        (tScaledLin (dOf (ei m c))
          (tAct1 (srcOf (ei m c)) (dstOf (ei m c))
            (dOf (ei m c)) (xIn m c) (w1In m c) (b1In m c)) (w2In m c)) := by
  funext i k
  refine (host2_collect (W4 m ρ c) i k).trans ?_
  rw [srcCol_W4, dstCol_W4, srcRow_W1, dstInt_W1, table2]

theorem biasRow2 : (fun j : Fin 64 => (V5 m ρ c main_v41 : S1x64.Idx → EReal) (ix2 0 j))
    = fun j => (m ((c : Thread nD τ).loc main_arg6) : S64.Idx → EReal) (ix1 j) := by
  funext j
  refine (host2_bias (W4 m ρ c) j).trans ?_
  rw [bias2_W4]

theorem outBiasRow : (fun o : Fin 10 => (V5 m ρ c main_v42 : S1x10.Idx → EReal) (ix2 0 o))
    = fun o => (m ((c : Thread nD τ).loc main_arg8) : S10.Idx → EReal) (ix1 o) := by
  funext o
  refine (host2_outBias (W4 m ρ c) o).trans ?_
  rw [outBias_W4]

theorem graphCol : (fun n : Fin 100000 => ((V5 m ρ c main_v40 : S100000x1.Idx → BitVec 32) (ix2 n 0)).toInt)
    = grpOf (m ((c : Thread nD τ).loc main_arg2)) := by
  funext n
  refine (congrArg BitVec.toInt (host2_graph (W4 m ρ c) n)).trans ?_
  rw [graph_W4]
  rfl

theorem kernel_value (m : (ℓ : Loc nD τ sig) → Buf (Elt Ideal) ℓ) (ρ : Dev nD → PrngReg) (c : Dev nD) :
    ((dat2 (F := Ideal) (V5 m ρ) c).arrAt 6 cfg2.N : S256x10.Idx → EReal) = fun idx =>
      tOut (srcOf (m ((c : Thread nD τ).loc main_arg1))) (dstOf (m ((c : Thread nD τ).loc main_arg1)))
        (dOf (m ((c : Thread nD τ).loc main_arg1))) (grpOf (m ((c : Thread nD τ).loc main_arg2)))
        (fun i j => (m ((c : Thread nD τ).loc main_arg0) : S100000x64.Idx → EReal) (ix2 i j))
        (fun i j => (m ((c : Thread nD τ).loc main_arg3) : S64x64.Idx → EReal) (ix2 i j))
        (fun i j => (m ((c : Thread nD τ).loc main_arg5) : S64x64.Idx → EReal) (ix2 i j))
        (fun j => (m ((c : Thread nD τ).loc main_arg4) : S64.Idx → EReal) (ix1 j))
        (fun j => (m ((c : Thread nD τ).loc main_arg6) : S64.Idx → EReal) (ix1 j))
        (fun i j => (m ((c : Thread nD τ).loc main_arg7) : S64x10.Idx → EReal) (ix2 i j))
        (fun j => (m ((c : Thread nD τ).loc main_arg8) : S10.Idx → EReal) (ix1 j)) (idx 0) (idx 1) := by
  rw [final2 (V5 m ρ) c, outWeight_V5, outBiasRow, graphCol, dinv_V5, dinv_V1, collected2, biasRow2]
  rfl

end Cert.KernelIdeal.Val

end
-- ==== Proof.lean ====
import proofs.«430635_j91018946937353_3_alg».proof.Defs
import proofs.«430635_j91018946937353_3_alg».proof.Proof.Gen.Kernel
import proofs.«430635_j91018946937353_3_alg».proof.Proof.Gen.Kernel.Skeleton
import proofs.«430635_j91018946937353_3_alg».proof.Proof.Gen.Kernel.Launch
import proofs.«430635_j91018946937353_3_alg».proof.Proof.Gen.Kernel.Regions
import proofs.«430635_j91018946937353_3_alg».proof.Proof.Gen.Kernel.Points
import proofs.«430635_j91018946937353_3_alg».proof.Proof.Gen.KernelIdeal
import proofs.«430635_j91018946937353_3_alg».proof.Proof.Gen.KernelIdeal.Skeleton
import proofs.«430635_j91018946937353_3_alg».proof.Proof.Gen.KernelIdeal.Launch
import proofs.«430635_j91018946937353_3_alg».proof.Proof.Gen.KernelIdeal.Regions
import proofs.«430635_j91018946937353_3_alg».proof.Proof.Gen.KernelIdeal.Points
import proofs.«430635_j91018946937353_3_alg».proof.Proof.Gen.ReferenceIdeal
import proofs.«430635_j91018946937353_3_alg».proof.Proof.Gen.Pre_finite_inputs
import proofs.«430635_j91018946937353_3_alg».proof.Proof.Gen.ReferenceIdeal.Run
import proofs.«430635_j91018946937353_3_alg».proof.Proof.Gen.ReferenceIdeal.Read
import Idealize.ShloMosaic.Adequacy
import Idealize.ShloMosaic.Init
import proofs.«430635_j91018946937353_3_alg».proof.Proof.Spec
import proofs.«430635_j91018946937353_3_alg».proof.Proof.Graph
import proofs.«430635_j91018946937353_3_alg».proof.Proof.GraphFacts
import proofs.«430635_j91018946937353_3_alg».proof.Proof.Algebra
import proofs.«430635_j91018946937353_3_alg».proof.Proof.RefValue
import proofs.«430635_j91018946937353_3_alg».proof.Proof.K.Run
import proofs.«430635_j91018946937353_3_alg».proof.Proof.KI.Run
import proofs.«430635_j91018946937353_3_alg».proof.Proof.KernelValue
import Idealize.ShloMosaic.Lib.ValueIdx

noncomputable section

namespace Cert.Proof

open Idealize.ShloMosaic Idealize.SL.Sem Idealize.ShloMosaic.ValueIdx Cert.GcnPool

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => (Cert.KernelIdeal.Hand.dat2 (F := Ideal) (Cert.KernelIdeal.Hand.V5 m ρ) c).arrAt 6 Cert.KernelIdeal.cfg2.N, Cert.KernelIdeal.Hand.run_value m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  rw [Cert.ReferenceIdeal.RefValue.res_eq, h0, h1, h2, h3, h4, h5, h6, h7, h8]
  funext idx
  refine (Cert.ReferenceIdeal.RefValue.ref_value _ _ _ _ _ _ _ _ _ idx).trans ?_
  refine Eq.trans ?_ (congrFun (Cert.KernelIdeal.Val.kernel_value m ρ c) idx).symm
  exact (congrFun (congrFun (tOut_eq_pOut _ _ _ _ _ _ _ _ _ _ _ _ (dOf_nonneg _) (dOf_ne_top _) (dstcOf_eq_of_dstOf _)) _) _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
